-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S800000x1 : Shape := ⟨2, ![800000, 1]⟩
abbrev S2x800000 : Shape := ⟨2, ![2, 800000]⟩
abbrev S50000 : Shape := ⟨1, ![50000]⟩
abbrev S1x128 : Shape := ⟨2, ![1, 128]⟩
abbrev S128 : Shape := ⟨1, ![128]⟩
abbrev S_ : Shape := ⟨0, ![]⟩
abbrev S128x128 : Shape := ⟨2, ![128, 128]⟩
abbrev S128x1 : Shape := ⟨2, ![128, 1]⟩
abbrev S1 : Shape := ⟨1, ![1]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  reducesTo_S_S_d : S_.ReducesTo [] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_v131 : IVec S_ 1) (main_v135 : IVec S_ 1) : IVec S_ 1 :=
  let main_v136 : IVec S_ 1 := andi main_v131 main_v135
  main_v136

def fn_part7 {F : FTy → Type} [FloatOps F] (main_arg27 : FVec F S128 .f32) (main_arg28 : FVec F S128x1 .f32) (main_arg29 : FVec F S1 .f32) (main_v116 : IVec S_ 1) (main_v117 : FVec F S128x128 .f32) (main_v118 : FVec F S128x128 .f32) : IVec S_ 1 :=
  let main_v119 : IVec S128x128 1 := cmpf .olt main_v117 main_v118
  let main_c_47 : IVec S_ 1 := constantI S_ 1 1#1
  let main_v120 : IVec S_ 1 := (fun x v => Host.reduce IntOp.andi x v reducesTo_S128x128_S_d0_1 h_S_) main_v119 main_c_47
  let main_v121 : IVec S_ 1 := andi main_v116 main_v120
  let main_v122 : FVec F S128 .f32 := Host.absf main_arg27
  let main_cst_48 : FVec F S_ .f32 := constant S_ .f32 0x7F800000#32
  let main_v123 : FVec F S128 .f32 := broadcastInDim S128 ![] bcast_S_S128 main_cst_48
  let main_v124 : IVec S128 1 := cmpf .olt main_v122 main_v123
  let main_c_49 : IVec S_ 1 := constantI S_ 1 1#1
  let main_v125 : IVec S_ 1 := (fun x v => Host.reduce IntOp.andi x v reducesTo_S128_S_d0 h_S_) main_v124 main_c_49
  let main_v126 : IVec S_ 1 := andi main_v121 main_v125
  let main_v127 : FVec F S128x1 .f32 := Host.absf main_arg28
  let main_cst_50 : FVec F S_ .f32 := constant S_ .f32 0x7F800000#32
  let main_v128 : FVec F S128x1 .f32 := broadcastInDim S128x1 ![] bcast_S_S128x1 main_cst_50
  let main_v129 : IVec S128x1 1 := cmpf .olt main_v127 main_v128
  let main_c_51 : IVec S_ 1 := constantI S_ 1 1#1
  let main_v130 : IVec S_ 1 := (fun x v => Host.reduce IntOp.andi x v reducesTo_S128x1_S_d0_1 h_S_) main_v129 main_c_51
  let main_v131 : IVec S_ 1 := andi main_v126 main_v130
  let main_v132 : FVec F S1 .f32 := Host.absf main_arg29
  let main_cst_52 : FVec F S_ .f32 := constant S_ .f32 0x7F800000#32
  let main_v133 : FVec F S1 .f32 := broadcastInDim S1 ![] bcast_S_S1 main_cst_52
  let main_v134 : IVec S1 1 := cmpf .olt main_v132 main_v133
  let main_c_53 : IVec S_ 1 := constantI S_ 1 1#1
  let main_v135 : IVec S_ 1 := (fun x v => Host.reduce IntOp.andi x v reducesTo_S1_S_d0 h_S_) main_v134 main_c_53
  fn_part8 (F := F) main_v131 main_v135

def fn_part6 {F : FTy → Type} [FloatOps F] (main_arg23 : FVec F S128 .f32) (main_arg24 : FVec F S128 .f32) (main_arg25 : FVec F S128 .f32) (main_arg26 : FVec F S128x128 .f32) (main_arg27 : FVec F S128 .f32) (main_arg28 : FVec F S128x1 .f32) (main_arg29 : FVec F S1 .f32) (main_v101 : IVec S_ 1) : IVec S_ 1 :=
  let main_v102 : FVec F S128 .f32 := Host.absf main_arg23
  let main_cst_40 : FVec F S_ .f32 := constant S_ .f32 0x7F800000#32
  let main_v103 : FVec F S128 .f32 := broadcastInDim S128 ![] bcast_S_S128 main_cst_40
  let main_v104 : IVec S128 1 := cmpf .olt main_v102 main_v103
  let main_c_41 : IVec S_ 1 := constantI S_ 1 1#1
  let main_v105 : IVec S_ 1 := (fun x v => Host.reduce IntOp.andi x v reducesTo_S128_S_d0 h_S_) main_v104 main_c_41
  let main_v106 : IVec S_ 1 := andi main_v101 main_v105
  let main_v107 : FVec F S128 .f32 := Host.absf main_arg24
  let main_cst_42 : FVec F S_ .f32 := constant S_ .f32 0x7F800000#32
  let main_v108 : FVec F S128 .f32 := broadcastInDim S128 ![] bcast_S_S128 main_cst_42
  let main_v109 : IVec S128 1 := cmpf .olt main_v107 main_v108
  let main_c_43 : IVec S_ 1 := constantI S_ 1 1#1
  let main_v110 : IVec S_ 1 := (fun x v => Host.reduce IntOp.andi x v reducesTo_S128_S_d0 h_S_) main_v109 main_c_43
  let main_v111 : IVec S_ 1 := andi main_v106 main_v110
  let main_v112 : FVec F S128 .f32 := Host.absf main_arg25
  let main_cst_44 : FVec F S_ .f32 := constant S_ .f32 0x7F800000#32
  let main_v113 : FVec F S128 .f32 := broadcastInDim S128 ![] bcast_S_S128 main_cst_44
  let main_v114 : IVec S128 1 := cmpf .olt main_v112 main_v113
  let main_c_45 : IVec S_ 1 := constantI S_ 1 1#1
  let main_v115 : IVec S_ 1 := (fun x v => Host.reduce IntOp.andi x v reducesTo_S128_S_d0 h_S_) main_v114 main_c_45
  let main_v116 : IVec S_ 1 := andi main_v111 main_v115
  let main_v117 : FVec F S128x128 .f32 := Host.absf main_arg26
  let main_cst_46 : FVec F S_ .f32 := constant S_ .f32 0x7F800000#32
  let main_v118 : FVec F S128x128 .f32 := broadcastInDim S128x128 ![] bcast_S_S128x128 main_cst_46
  fn_part7 (F := F) main_arg27 main_arg28 main_arg29 main_v116 main_v117 main_v118

def fn_part5 {F : FTy → Type} [FloatOps F] (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S128x1 .f32) (main_arg29 : FVec F S1 .f32) (main_v81 : IVec S_ 1) (main_v84 : IVec S128 1) : IVec S_ 1 :=
  let main_c_33 : IVec S_ 1 := constantI S_ 1 1#1
  let main_v85 : IVec S_ 1 := (fun x v => Host.reduce IntOp.andi x v reducesTo_S128_S_d0 h_S_) main_v84 main_c_33
  let main_v86 : IVec S_ 1 := andi main_v81 main_v85
  let main_v87 : FVec F S128x128 .f32 := Host.absf main_arg20
  let main_cst_34 : FVec F S_ .f32 := constant S_ .f32 0x7F800000#32
  let main_v88 : FVec F S128x128 .f32 := broadcastInDim S128x128 ![] bcast_S_S128x128 main_cst_34
  let main_v89 : IVec S128x128 1 := cmpf .olt main_v87 main_v88
  let main_c_35 : IVec S_ 1 := constantI S_ 1 1#1
  let main_v90 : IVec S_ 1 := (fun x v => Host.reduce IntOp.andi x v reducesTo_S128x128_S_d0_1 h_S_) main_v89 main_c_35
  let main_v91 : IVec S_ 1 := andi main_v86 main_v90
  let main_v92 : FVec F S128 .f32 := Host.absf main_arg21
  let main_cst_36 : FVec F S_ .f32 := constant S_ .f32 0x7F800000#32
  let main_v93 : FVec F S128 .f32 := broadcastInDim S128 ![] bcast_S_S128 main_cst_36
  let main_v94 : IVec S128 1 := cmpf .olt main_v92 main_v93
  let main_c_37 : IVec S_ 1 := constantI S_ 1 1#1
  let main_v95 : IVec S_ 1 := (fun x v => Host.reduce IntOp.andi x v reducesTo_S128_S_d0 h_S_) main_v94 main_c_37
  let main_v96 : IVec S_ 1 := andi main_v91 main_v95
  let main_v97 : FVec F S128 .f32 := Host.absf main_arg22
  let main_cst_38 : FVec F S_ .f32 := constant S_ .f32 0x7F800000#32
  let main_v98 : FVec F S128 .f32 := broadcastInDim S128 ![] bcast_S_S128 main_cst_38
  let main_v99 : IVec S128 1 := cmpf .olt main_v97 main_v98
  let main_c_39 : IVec S_ 1 := constantI S_ 1 1#1
  let main_v100 : IVec S_ 1 := (fun x v => Host.reduce IntOp.andi x v reducesTo_S128_S_d0 h_S_) main_v99 main_c_39
  let main_v101 : IVec S_ 1 := andi main_v96 main_v100
  fn_part6 (F := F) main_arg23 main_arg24 main_arg25 main_arg26 main_arg27 main_arg28 main_arg29 main_v101

def fn_part4 {F : FTy → Type} [FloatOps F] (main_arg16 : FVec F S128 .f32) (main_arg17 : FVec F S_ .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S128x1 .f32) (main_arg29 : FVec F S1 .f32) (main_v67 : IVec S_ 1) : IVec S_ 1 :=
  let main_v68 : FVec F S128 .f32 := Host.absf main_arg16
  let main_cst_26 : FVec F S_ .f32 := constant S_ .f32 0x7F800000#32
  let main_v69 : FVec F S128 .f32 := broadcastInDim S128 ![] bcast_S_S128 main_cst_26
  let main_v70 : IVec S128 1 := cmpf .olt main_v68 main_v69
  let main_c_27 : IVec S_ 1 := constantI S_ 1 1#1
  let main_v71 : IVec S_ 1 := (fun x v => Host.reduce IntOp.andi x v reducesTo_S128_S_d0 h_S_) main_v70 main_c_27
  let main_v72 : IVec S_ 1 := andi main_v67 main_v71
  let main_v73 : FVec F S_ .f32 := Host.absf main_arg17
  let main_cst_28 : FVec F S_ .f32 := constant S_ .f32 0x7F800000#32
  let main_v74 : IVec S_ 1 := cmpf .olt main_v73 main_cst_28
  let main_c_29 : IVec S_ 1 := constantI S_ 1 1#1
  let main_v75 : IVec S_ 1 := (fun x v => Host.reduce IntOp.andi x v reducesTo_S_S_d h_S_) main_v74 main_c_29
  let main_v76 : IVec S_ 1 := andi main_v72 main_v75
  let main_v77 : FVec F S128x128 .f32 := Host.absf main_arg18
  let main_cst_30 : FVec F S_ .f32 := constant S_ .f32 0x7F800000#32
  let main_v78 : FVec F S128x128 .f32 := broadcastInDim S128x128 ![] bcast_S_S128x128 main_cst_30
  let main_v79 : IVec S128x128 1 := cmpf .olt main_v77 main_v78
  let main_c_31 : IVec S_ 1 := constantI S_ 1 1#1
  let main_v80 : IVec S_ 1 := (fun x v => Host.reduce IntOp.andi x v reducesTo_S128x128_S_d0_1 h_S_) main_v79 main_c_31
  let main_v81 : IVec S_ 1 := andi main_v76 main_v80
  let main_v82 : FVec F S128 .f32 := Host.absf main_arg19
  let main_cst_32 : FVec F S_ .f32 := constant S_ .f32 0x7F800000#32
  let main_v83 : FVec F S128 .f32 := broadcastInDim S128 ![] bcast_S_S128 main_cst_32
  let main_v84 : IVec S128 1 := cmpf .olt main_v82 main_v83
  fn_part5 (F := F) main_arg20 main_arg21 main_arg22 main_arg23 main_arg24 main_arg25 main_arg26 main_arg27 main_arg28 main_arg29 main_v81 main_v84

def fn_part3 {F : FTy → Type} [FloatOps F] (main_arg13 : FVec F S128 .f32) (main_arg14 : FVec F S128 .f32) (main_arg15 : FVec F S128 .f32) (main_arg16 : FVec F S128 .f32) (main_arg17 : FVec F S_ .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S128x1 .f32) (main_arg29 : FVec F S1 .f32) (main_v47 : IVec S_ 1) (main_v50 : IVec S128 1) : IVec S_ 1 :=
  let main_c_19 : IVec S_ 1 := constantI S_ 1 1#1
  let main_v51 : IVec S_ 1 := (fun x v => Host.reduce IntOp.andi x v reducesTo_S128_S_d0 h_S_) main_v50 main_c_19
  let main_v52 : IVec S_ 1 := andi main_v47 main_v51
  let main_v53 : FVec F S128 .f32 := Host.absf main_arg13
  let main_cst_20 : FVec F S_ .f32 := constant S_ .f32 0x7F800000#32
  let main_v54 : FVec F S128 .f32 := broadcastInDim S128 ![] bcast_S_S128 main_cst_20
  let main_v55 : IVec S128 1 := cmpf .olt main_v53 main_v54
  let main_c_21 : IVec S_ 1 := constantI S_ 1 1#1
  let main_v56 : IVec S_ 1 := (fun x v => Host.reduce IntOp.andi x v reducesTo_S128_S_d0 h_S_) main_v55 main_c_21
  let main_v57 : IVec S_ 1 := andi main_v52 main_v56
  let main_v58 : FVec F S128 .f32 := Host.absf main_arg14
  let main_cst_22 : FVec F S_ .f32 := constant S_ .f32 0x7F800000#32
  let main_v59 : FVec F S128 .f32 := broadcastInDim S128 ![] bcast_S_S128 main_cst_22
  let main_v60 : IVec S128 1 := cmpf .olt main_v58 main_v59
  let main_c_23 : IVec S_ 1 := constantI S_ 1 1#1
  let main_v61 : IVec S_ 1 := (fun x v => Host.reduce IntOp.andi x v reducesTo_S128_S_d0 h_S_) main_v60 main_c_23
  let main_v62 : IVec S_ 1 := andi main_v57 main_v61
  let main_v63 : FVec F S128 .f32 := Host.absf main_arg15
  let main_cst_24 : FVec F S_ .f32 := constant S_ .f32 0x7F800000#32
  let main_v64 : FVec F S128 .f32 := broadcastInDim S128 ![] bcast_S_S128 main_cst_24
  let main_v65 : IVec S128 1 := cmpf .olt main_v63 main_v64
  let main_c_25 : IVec S_ 1 := constantI S_ 1 1#1
  let main_v66 : IVec S_ 1 := (fun x v => Host.reduce IntOp.andi x v reducesTo_S128_S_d0 h_S_) main_v65 main_c_25
  let main_v67 : IVec S_ 1 := andi main_v62 main_v66
  fn_part4 (F := F) main_arg16 main_arg17 main_arg18 main_arg19 main_arg20 main_arg21 main_arg22 main_arg23 main_arg24 main_arg25 main_arg26 main_arg27 main_arg28 main_arg29 main_v67

def fn_part2 {F : FTy → Type} [FloatOps F] (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S_ .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S128x1 .f32) (main_arg29 : FVec F S1 .f32) (main_v32 : IVec S_ 1) (main_v33 : FVec F S128x128 .f32) : IVec S_ 1 :=
  let main_cst_12 : FVec F S_ .f32 := constant S_ .f32 0x7F800000#32
  let main_v34 : FVec F S128x128 .f32 := broadcastInDim S128x128 ![] bcast_S_S128x128 main_cst_12
  let main_v35 : IVec S128x128 1 := cmpf .olt main_v33 main_v34
  let main_c_13 : IVec S_ 1 := constantI S_ 1 1#1
  let main_v36 : IVec S_ 1 := (fun x v => Host.reduce IntOp.andi x v reducesTo_S128x128_S_d0_1 h_S_) main_v35 main_c_13
  let main_v37 : IVec S_ 1 := andi main_v32 main_v36
  let main_v38 : FVec F S128 .f32 := Host.absf main_arg10
  let main_cst_14 : FVec F S_ .f32 := constant S_ .f32 0x7F800000#32
  let main_v39 : FVec F S128 .f32 := broadcastInDim S128 ![] bcast_S_S128 main_cst_14
  let main_v40 : IVec S128 1 := cmpf .olt main_v38 main_v39
  let main_c_15 : IVec S_ 1 := constantI S_ 1 1#1
  let main_v41 : IVec S_ 1 := (fun x v => Host.reduce IntOp.andi x v reducesTo_S128_S_d0 h_S_) main_v40 main_c_15
  let main_v42 : IVec S_ 1 := andi main_v37 main_v41
  let main_v43 : FVec F S128x128 .f32 := Host.absf main_arg11
  let main_cst_16 : FVec F S_ .f32 := constant S_ .f32 0x7F800000#32
  let main_v44 : FVec F S128x128 .f32 := broadcastInDim S128x128 ![] bcast_S_S128x128 main_cst_16
  let main_v45 : IVec S128x128 1 := cmpf .olt main_v43 main_v44
  let main_c_17 : IVec S_ 1 := constantI S_ 1 1#1
  let main_v46 : IVec S_ 1 := (fun x v => Host.reduce IntOp.andi x v reducesTo_S128x128_S_d0_1 h_S_) main_v45 main_c_17
  let main_v47 : IVec S_ 1 := andi main_v42 main_v46
  let main_v48 : FVec F S128 .f32 := Host.absf main_arg12
  let main_cst_18 : FVec F S_ .f32 := constant S_ .f32 0x7F800000#32
  let main_v49 : FVec F S128 .f32 := broadcastInDim S128 ![] bcast_S_S128 main_cst_18
  let main_v50 : IVec S128 1 := cmpf .olt main_v48 main_v49
  fn_part3 (F := F) main_arg13 main_arg14 main_arg15 main_arg16 main_arg17 main_arg18 main_arg19 main_arg20 main_arg21 main_arg22 main_arg23 main_arg24 main_arg25 main_arg26 main_arg27 main_arg28 main_arg29 main_v47 main_v50

def fn_part1 {F : FTy → Type} [FloatOps F] (main_arg6 : FVec F S1x128 .f32) (main_arg7 : FVec F S128 .f32) (main_arg8 : FVec F S_ .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S_ .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S128x1 .f32) (main_arg29 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg6
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S_ .f32 := Host.absf main_arg8
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  let main_v33 : FVec F S128x128 .f32 := Host.absf main_arg9
  fn_part2 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_v32 main_v33

def fn {F : FTy → Type} [FloatOps F] (main_arg0 : FVec F S50000x1 .f32) (main_arg1 : FVec F S800000x1 .f32) (main_arg2 : IVec S2x800000 32) (main_arg3 : IVec S50000 32) (main_arg4 : FVec F S1x128 .f32) (main_arg5 : FVec F S128 .f32) (main_arg6 : FVec F S1x128 .f32) (main_arg7 : FVec F S128 .f32) (main_arg8 : FVec F S_ .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S_ .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S128x1 .f32) (main_arg29 : FVec F S1 .f32) : IVec S_ 1 :=
  let main_v0 : FVec F S50000x1 .f32 := Host.absf main_arg0
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S800000x1 .f32 := Host.absf main_arg1
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S1x128 .f32 := Host.absf main_arg4
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S50000x1 : Shape := ⟨2, ![50000, 1]⟩
abbrev S800000x1 : Shape := ⟨2, ![800000, 1]⟩
abbrev S2x800000 : Shape := ⟨2, ![2, 800000]⟩
abbrev S50000 : Shape := ⟨1, ![50000]⟩
abbrev S1x128 : Shape := ⟨2, ![1, 128]⟩
abbrev S128 : Shape := ⟨1, ![128]⟩
abbrev S_ : Shape := ⟨0, ![]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S50000x128 : Shape := ⟨2, ![50000, 128]⟩
abbrev S5000x1 : Shape := ⟨2, ![5000, 1]⟩
abbrev S5000x128 : Shape := ⟨2, ![5000, 128]⟩
abbrev S800000x128 : Shape := ⟨2, ![800000, 128]⟩
abbrev S1x1 : Shape := ⟨2, ![1, 1]⟩
abbrev S2000x128 : Shape := ⟨2, ![2000, 128]⟩
abbrev S64 : Shape := ⟨1, ![64]⟩
abbrev S1x64 : Shape := ⟨2, ![1, 64]⟩
abbrev S50000x64 : Shape := ⟨2, ![50000, 64]⟩
abbrev S64x128 : Shape := ⟨2, ![64, 128]⟩
abbrev S5000x64 : Shape := ⟨2, ![5000, 64]⟩
abbrev S64x1 : Shape := ⟨2, ![64, 1]⟩

abbrev nBuf : Space → Nat
  | .hbm => 119
  | .vmem => 48
  | .smem => 0
  | _ => 0

abbrev bufTy : (tb : Table) → Fin (tcTables nBuf tb) → BufTy
  | .hbm, ⟨0, _⟩ => ⟨S50000x1, .f32⟩
  | .hbm, ⟨1, _⟩ => ⟨S800000x1, .f32⟩
  | .hbm, ⟨2, _⟩ => ⟨S2x800000, .i32⟩
  | .hbm, ⟨3, _⟩ => ⟨S50000, .i32⟩
  | .hbm, ⟨4, _⟩ => ⟨S1x128, .f32⟩
  | .hbm, ⟨5, _⟩ => ⟨S128, .f32⟩
  | .hbm, ⟨6, _⟩ => ⟨S1x128, .f32⟩
  | .hbm, ⟨7, _⟩ => ⟨S128, .f32⟩
  | .hbm, ⟨8, _⟩ => ⟨S_, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S128x128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S128x128, .f32⟩
  | .hbm, ⟨27, _⟩ => ⟨S128, .f32⟩
  | .hbm, ⟨28, _⟩ => ⟨S128x1, .f32⟩
  | .hbm, ⟨29, _⟩ => ⟨S1, .f32⟩
  | .hbm, ⟨30, _⟩ => ⟨S1x800000, .i32⟩
  | .hbm, ⟨31, _⟩ => ⟨S800000, .i32⟩
  | .hbm, ⟨32, _⟩ => ⟨S1x800000, .i32⟩
  | .hbm, ⟨33, _⟩ => ⟨S800000, .i32⟩
  | .hbm, ⟨34, _⟩ => ⟨S1x128, .f32⟩
  | .hbm, ⟨35, _⟩ => ⟨S50000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S800000x128, .f32⟩
  | .hbm, ⟨46, _⟩ => ⟨S800000x128, .f32⟩
  | .hbm, ⟨47, _⟩ => ⟨S800000x128, .f32⟩
  | .hbm, ⟨48, _⟩ => ⟨S800000x128, .f32⟩
  | .hbm, ⟨49, _⟩ => ⟨S1x128, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S1x1, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S50000x128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S800000x128, .f32⟩
  | .hbm, ⟨77, _⟩ => ⟨S800000x128, .f32⟩
  | .hbm, ⟨78, _⟩ => ⟨S800000x128, .f32⟩
  | .hbm, ⟨79, _⟩ => ⟨S800000x128, .f32⟩
  | .hbm, ⟨80, _⟩ => ⟨S1x128, .f32⟩
  | .hbm, ⟨81, _⟩ => ⟨S800000x128, .f32⟩
  | .hbm, ⟨82, _⟩ => ⟨S800000x128, .f32⟩
  | .hbm, ⟨83, _⟩ => ⟨S_, .f32⟩
  | .hbm, ⟨84, _⟩ => ⟨S800000x128, .f32⟩
  | .hbm, ⟨85, _⟩ => ⟨S800000x128, .f32⟩
  | .hbm, ⟨86, _⟩ => ⟨S_, .f32⟩
  | .hbm, ⟨87, _⟩ => ⟨S50000x128, .f32⟩
  | .hbm, ⟨88, _⟩ => ⟨S800000x1, .i32⟩
  | .hbm, ⟨89, _⟩ => ⟨S50000x128, .f32⟩
  | .hbm, ⟨90, _⟩ => ⟨S1x1, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S50000x128, .f32⟩
  | .hbm, ⟨98, _⟩ => ⟨S64, .i32⟩
  | .hbm, ⟨99, _⟩ => ⟨S50000x1, .i32⟩
  | .hbm, ⟨100, _⟩ => ⟨S1x64, .i32⟩
  | .hbm, ⟨101, _⟩ => ⟨S50000x64, .i32⟩
  | .hbm, ⟨102, _⟩ => ⟨S50000x64, .i32⟩
  | .hbm, ⟨103, _⟩ => ⟨S50000x64, .i1⟩
  | .hbm, ⟨104, _⟩ => ⟨S50000x64, .f32⟩
  | .hbm, ⟨105, _⟩ => ⟨S_, .f32⟩
  | .hbm, ⟨106, _⟩ => ⟨S64, .f32⟩
  | .hbm, ⟨107, _⟩ => ⟨S50000x64, .bf16⟩
  | .hbm, ⟨108, _⟩ => ⟨S64x128, .f32⟩
  | .hbm, ⟨109, _⟩ => ⟨S_, .f32⟩
  | .hbm, ⟨110, _⟩ => ⟨S64, .f32⟩
  | .hbm, ⟨111, _⟩ => ⟨S64, .f32⟩
  | .hbm, ⟨112, _⟩ => ⟨S64x1, .f32⟩
  | .hbm, ⟨113, _⟩ => ⟨S64x128, .f32⟩
  | .hbm, ⟨114, _⟩ => ⟨S64x128, .f32⟩
  | .hbm, ⟨115, _⟩ => ⟨S1x128, .f32⟩
  | .hbm, ⟨116, _⟩ => ⟨S1x1, .f32⟩
  | .hbm, ⟨117, _⟩ => ⟨S64x1, .f32⟩
  | .hbm, ⟨118, _⟩ => ⟨S64, .f32⟩
  | .local _ .vmem, ⟨0, _⟩ => ⟨S5000x1, .f32⟩
  | .local _ .vmem, ⟨1, _⟩ => ⟨S5000x1, .f32⟩
  | .local _ .vmem, ⟨2, _⟩ => ⟨S1x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S1x1, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S1x1, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S5000x64, .bf16⟩
  | .local _ .vmem, ⟨37, _⟩ => ⟨S5000x64, .bf16⟩
  | .local _ .vmem, ⟨38, _⟩ => ⟨S5000x128, .f32⟩
  | .local _ .vmem, ⟨39, _⟩ => ⟨S5000x128, .f32⟩
  | .local _ .vmem, ⟨40, _⟩ => ⟨S64x128, .f32⟩
  | .local _ .vmem, ⟨41, _⟩ => ⟨S64x128, .f32⟩
  | .local _ .vmem, ⟨42, _⟩ => ⟨S64x128, .f32⟩
  | .local _ .vmem, ⟨43, _⟩ => ⟨S128x128, .f32⟩
  | .local _ .vmem, ⟨44, _⟩ => ⟨S1x128, .f32⟩
  | .local _ .vmem, ⟨45, _⟩ => ⟨S128x1, .f32⟩
  | .local _ .vmem, ⟨46, _⟩ => ⟨S1x1, .f32⟩
  | .local _ .vmem, ⟨47, _⟩ => ⟨S64x1, .f32⟩
  | _, _ => ⟨S50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_c : Ref sig .tc := ⟨.hbm, 36, rfl⟩
abbrev main_v6 : Ref sig .tc := ⟨.hbm, 37, rfl⟩
abbrev main_v7 : Ref sig .tc := ⟨.hbm, 38, rfl⟩
abbrev main_c_0 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_call0_cst : Ref sig .tc := ⟨.hbm, 52, rfl⟩
abbrev main_call0_v0 : Ref sig .tc := ⟨.hbm, 53, rfl⟩
abbrev main_v20 : Ref sig .tc := ⟨.hbm, 54, rfl⟩
abbrev main_cst : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_c_1 : Ref sig .tc := ⟨.hbm, 67, rfl⟩
abbrev main_v32 : Ref sig .tc := ⟨.hbm, 68, rfl⟩
abbrev main_v33 : Ref sig .tc := ⟨.hbm, 69, rfl⟩
abbrev main_c_2 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_call1_cst : Ref sig .tc := ⟨.hbm, 83, rfl⟩
abbrev main_call1_v0 : Ref sig .tc := ⟨.hbm, 84, rfl⟩
abbrev main_v46 : Ref sig .tc := ⟨.hbm, 85, rfl⟩
abbrev main_cst_3 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_4 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_5 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg11_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg10_0 : Ref sig .tc := ⟨.vmem, 33, rfl⟩
abbrev cc2_stg11_0 : Ref sig .tc := ⟨.vmem, 34, rfl⟩
abbrev cc2_stg11_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_scratch0 : Ref sig .tc := ⟨.vmem, 41, rfl⟩
abbrev cc4_stg0_0 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem11_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem9_0 : DmaSem sig := 32
abbrev cc2_sem10_0 : DmaSem sig := 33
abbrev cc2_sem11_0 : DmaSem sig := 34
abbrev cc2_sem11_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc4_sem0_0 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S2000x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v14 : BitVec 1 := Scalar.cmpi .eq arg0 c9_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  inb_S1x128_S1x128_0_0 : ∀ a, (![0, 0] : Fin 2 → Nat) a + S1x128.size a ≤ S1x128.size a
  h_S1x128 : 0 < S1x128.numel
  broadcasts_S5000x1_S5000x128 : S5000x1.Broadcasts S5000x128
  broadcasts_S1x128_S5000x128 : S1x128.Broadcasts S5000x128
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S1x128_S800000x128_0_1 : S1x128.BroadcastsInDim S800000x128 (![0, 1] : Fin 2 → Fin S800000x128.rank)
  bcast_S128_S1x128_1 : S128.BroadcastsInDim S1x128 (![1] : Fin 1 → Fin S1x128.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x1_S2000x128 : S1x1.Broadcasts S2000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  broadcasts_S1x128_S2000x128 : S1x128.Broadcasts S2000x128
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  shapeCasts_S5000x128_S5000x128 : S5000x128.ShapeCasts S5000x128
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S1_S1x1 : S1.ShapeCasts S1x1
  inb_S128x1_S128x1_0_0 : ∀ a, (![0, 0] : Fin 2 → Nat) a + S128x1.size a ≤ S128x1.size a
  h_S128x1 : 0 < S128x1.numel
  broadcasts_S1x128_S64x128 : S1x128.Broadcasts S64x128
  broadcasts_S1x1_S64x1 : S1x1.Broadcasts S64x1
  inb_S64x1_S64x1_0_0 : ∀ a, (![0, 0] : Fin 2 → Nat) a + S64x1.size a ≤ S64x1.size a
  h_S64x1 : 0 < S64x1.numel
  shapeCasts_S64x1_S64 : S64x1.ShapeCasts S64
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S5000x64_S5000x128_S64x128_0_0_1_1_n_n_wf : DotDims.WF S5000x64 S5000x128 S64x128 [0] [0] [1] [1] [] []
  dot_S64x128_S128x128_S64x128_1_0_0_1_n_n_wf : DotDims.WF S64x128 S128x128 S64x128 [1] [0] [0] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S50000x1.size a
  hwx0_0 : ∀ i : grid0.Coords, EltTy.bits .f32 = 32 ∨ (Rect.block (s := S50000x1) S5000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x128.size a ≤ S50000x128.size a
  hwx1_11 : ∀ i : grid1.Coords, EltTy.bits .f32 = 32 ∨ (Rect.block (s := S50000x128) S2000x128.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S2000x128.size a ≤ S50000x128.size a
  hwx2_11 : ∀ i : grid2.Coords, EltTy.bits .f32 = 32 ∨ (Rect.block (s := S50000x128) S2000x128.size (cc2_transform_11 i) (hinb2_11 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .bf16 = 32 ∨ (Rect.block (s := S50000x64) S5000x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x1.size a ≤ S128x1.size a
  hwx4_3 : ∀ i : grid4.Coords, EltTy.bits .f32 = 32 ∨ (Rect.block (s := S128x1) S128x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x1.size a ≤ S64x1.size a
  hwx4_5 : ∀ i : grid4.Coords, EltTy.bits .f32 = 32 ∨ (Rect.block (s := S64x1) S64x1.size (cc4_transform_5 i) (hinb4_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v28) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v29) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v30) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v31) S2000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v31) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg18) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg20) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v53) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v54) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v55) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v56) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v57) S2000x128.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev win3_0 : Pipeline.Window sig grid3 :=
  Pipeline.Window.ofSpec (Memref.whole main_v66) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v67) S64x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v72) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg26) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg28) S128x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v74) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v75) S64x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x1 : Shape := ⟨2, ![50000, 1]⟩
abbrev S800000x1 : Shape := ⟨2, ![800000, 1]⟩
abbrev S2x800000 : Shape := ⟨2, ![2, 800000]⟩
abbrev S50000 : Shape := ⟨1, ![50000]⟩
abbrev S1x128 : Shape := ⟨2, ![1, 128]⟩
abbrev S128 : Shape := ⟨1, ![128]⟩
abbrev S_ : Shape := ⟨0, ![]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S50000x128 : Shape := ⟨2, ![50000, 128]⟩
abbrev S800000x128 : Shape := ⟨2, ![800000, 128]⟩
abbrev S64x128 : Shape := ⟨2, ![64, 128]⟩
abbrev S64 : Shape := ⟨1, ![64]⟩
abbrev S64x1 : Shape := ⟨2, ![64, 1]⟩
abbrev S1x1 : Shape := ⟨2, ![1, 1]⟩

abbrev nBuf : Space → Nat
  | .hbm => 194
  | .vmem => 0
  | .smem => 0
  | _ => 0

abbrev hbmTy0_0 (i : Nat) : BufTy := match i % 128 with
  | 0 => ⟨S50000x1, .f32⟩
  | 1 => ⟨S800000x1, .f32⟩
  | 2 => ⟨S2x800000, .i32⟩
  | 3 => ⟨S50000, .i32⟩
  | 4 => ⟨S1x128, .f32⟩
  | 5 => ⟨S128, .f32⟩
  | 6 => ⟨S1x128, .f32⟩
  | 7 => ⟨S128, .f32⟩
  | 8 => ⟨S_, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S_, .f32⟩
  | 18 => ⟨S128x128, .f32⟩
  | 19 => ⟨S128, .f32⟩
  | 20 => ⟨S128x128, .f32⟩
  | 21 => ⟨S128, .f32⟩
  | 22 => ⟨S128, .f32⟩
  | 23 => ⟨S128, .f32⟩
  | 24 => ⟨S128, .f32⟩
  | 25 => ⟨S128, .f32⟩
  | 26 => ⟨S128x128, .f32⟩
  | 27 => ⟨S128, .f32⟩
  | 28 => ⟨S128x1, .f32⟩
  | 29 => ⟨S1, .f32⟩
  | 30 => ⟨S1x800000, .i32⟩
  | 31 => ⟨S800000, .i32⟩
  | 32 => ⟨S1x800000, .i32⟩
  | 33 => ⟨S800000, .i32⟩
  | 34 => ⟨S50000x128, .f32⟩
  | 35 => ⟨S1x128, .f32⟩
  | 36 => ⟨S50000x128, .f32⟩
  | 37 => ⟨S50000x128, .f32⟩
  | 38 => ⟨S800000x128, .f32⟩
  | 39 => ⟨S1x128, .f32⟩
  | 40 => ⟨S800000x128, .f32⟩
  | 41 => ⟨S800000x128, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S800000x128, .f32⟩
  | 52 => ⟨S_, .f32⟩
  | 53 => ⟨S800000x128, .f32⟩
  | 54 => ⟨S800000x128, .f32⟩
  | 55 => ⟨S_, .f32⟩
  | 56 => ⟨S50000x128, .f32⟩
  | 57 => ⟨S800000x1, .i32⟩
  | 58 => ⟨S50000x128, .f32⟩
  | 59 => ⟨S_, .f32⟩
  | 60 => ⟨S_, .f32⟩
  | 61 => ⟨S50000x128, .f32⟩
  | 62 => ⟨S50000x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .i1⟩
  | 71 => ⟨S_, .f32⟩
  | 72 => ⟨S50000x128, .f32⟩
  | 73 => ⟨S50000x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S128, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .f32⟩
  | 107 => ⟨S800000x128, .f32⟩
  | 108 => ⟨S_, .f32⟩
  | 109 => ⟨S800000x128, .f32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S_, .f32⟩
  | 116 => ⟨S_, .f32⟩
  | 117 => ⟨S50000x128, .f32⟩
  | 118 => ⟨S50000x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .i1⟩
  | 127 => ⟨S_, .f32⟩
  | _ => ⟨S50000x1, .f32⟩

abbrev hbmTy0_1 (i : Nat) : BufTy := match i % 128 with
  | 0 => ⟨S50000x128, .f32⟩
  | 1 => ⟨S50000x128, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S128, .f32⟩
  | 12 => ⟨S128, .f32⟩
  | 13 => ⟨S128, .f32⟩
  | 14 => ⟨S1x128, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S_, .f32⟩
  | 27 => ⟨S64x128, .f32⟩
  | 28 => ⟨S50000x1, .i32⟩
  | 29 => ⟨S64x128, .f32⟩
  | 30 => ⟨S_, .f32⟩
  | 31 => ⟨S50000, .f32⟩
  | 32 => ⟨S_, .f32⟩
  | 33 => ⟨S64, .f32⟩
  | 34 => ⟨S50000x1, .i32⟩
  | 35 => ⟨S64, .f32⟩
  | 36 => ⟨S_, .f32⟩
  | 37 => ⟨S64, .f32⟩
  | 38 => ⟨S64, .f32⟩
  | 39 => ⟨S64x1, .f32⟩
  | 40 => ⟨S64x128, .f32⟩
  | 41 => ⟨S64x128, .f32⟩
  | 42 => ⟨S64x128, .f32⟩
  | 43 => ⟨S1x128, .f32⟩
  | 44 => ⟨S64x128, .f32⟩
  | 45 => ⟨S64x128, .f32⟩
  | 46 => ⟨S_, .f32⟩
  | 47 => ⟨S64x128, .f32⟩
  | 48 => ⟨S64x128, .i1⟩
  | 49 => ⟨S_, .f32⟩
  | 50 => ⟨S64x128, .f32⟩
  | 51 => ⟨S64x128, .f32⟩
  | 52 => ⟨S64x128, .f32⟩
  | 53 => ⟨S64x1, .f32⟩
  | 54 => ⟨S1x1, .f32⟩
  | 55 => ⟨S64x1, .f32⟩
  | 56 => ⟨S64x1, .f32⟩
  | 57 => ⟨S64x1, .f32⟩
  | 58 => ⟨S64x1, .f32⟩
  | 59 => ⟨S_, .f32⟩
  | 60 => ⟨S64x1, .f32⟩
  | 61 => ⟨S64x1, .f32⟩
  | 62 => ⟨S_, .f32⟩
  | 63 => ⟨S64x1, .f32⟩
  | 64 => ⟨S64x1, .f32⟩
  | 65 => ⟨S64, .f32⟩
  | _ => ⟨S50000x1, .f32⟩

abbrev hbmTy (i : Nat) : BufTy := match i / 128 with
  | 0 => hbmTy0_0 i
  | 1 => hbmTy0_1 i
  | _ => ⟨S50000x1, .f32⟩

abbrev bufTy : (tb : Table) → Fin (tcTables nBuf tb) → BufTy
  | .hbm, ⟨i, _⟩ => hbmTy i
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_c : Ref sig .tc := ⟨.hbm, 42, rfl⟩
abbrev main_v12 : Ref sig .tc := ⟨.hbm, 43, rfl⟩
abbrev main_v13 : Ref sig .tc := ⟨.hbm, 44, rfl⟩
abbrev main_c_0 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_call0_cst : Ref sig .tc := ⟨.hbm, 52, rfl⟩
abbrev main_call0_v0 : Ref sig .tc := ⟨.hbm, 53, rfl⟩
abbrev main_v20 : Ref sig .tc := ⟨.hbm, 54, rfl⟩
abbrev main_cst : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_1 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_2 : Ref sig .tc := ⟨.hbm, 68, rfl⟩
abbrev main_v32 : Ref sig .tc := ⟨.hbm, 69, rfl⟩
abbrev main_v33 : Ref sig .tc := ⟨.hbm, 70, rfl⟩
abbrev main_cst_3 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_4 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_call2_cst : Ref sig .tc := ⟨.hbm, 95, rfl⟩
abbrev main_call2_v0 : Ref sig .tc := ⟨.hbm, 96, rfl⟩
abbrev main_v56 : Ref sig .tc := ⟨.hbm, 97, rfl⟩
abbrev main_c_5 : Ref sig .tc := ⟨.hbm, 98, rfl⟩
abbrev main_v57 : Ref sig .tc := ⟨.hbm, 99, rfl⟩
abbrev main_v58 : Ref sig .tc := ⟨.hbm, 100, rfl⟩
abbrev main_c_6 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_call3_cst : Ref sig .tc := ⟨.hbm, 108, rfl⟩
abbrev main_call3_v0 : Ref sig .tc := ⟨.hbm, 109, rfl⟩
abbrev main_v65 : Ref sig .tc := ⟨.hbm, 110, rfl⟩
abbrev main_cst_7 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_8 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_cst_9 : Ref sig .tc := ⟨.hbm, 124, rfl⟩
abbrev main_v77 : Ref sig .tc := ⟨.hbm, 125, rfl⟩
abbrev main_v78 : Ref sig .tc := ⟨.hbm, 126, rfl⟩
abbrev main_cst_10 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_11 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_call5_cst : Ref sig .tc := ⟨.hbm, 151, rfl⟩
abbrev main_call5_v0 : Ref sig .tc := ⟨.hbm, 152, rfl⟩
abbrev main_v101 : Ref sig .tc := ⟨.hbm, 153, rfl⟩
abbrev main_cst_12 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_cst_13 : Ref sig .tc := ⟨.hbm, 158, rfl⟩
abbrev main_v105 : Ref sig .tc := ⟨.hbm, 159, rfl⟩
abbrev main_cst_14 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_cst_15 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_cst_16 : Ref sig .tc := ⟨.hbm, 174, rfl⟩
abbrev main_v118 : Ref sig .tc := ⟨.hbm, 175, rfl⟩
abbrev main_v119 : Ref sig .tc := ⟨.hbm, 176, rfl⟩
abbrev main_cst_17 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_cst_18 : Ref sig .tc := ⟨.hbm, 187, rfl⟩
abbrev main_v129 : Ref sig .tc := ⟨.hbm, 188, rfl⟩
abbrev main_v130 : Ref sig .tc := ⟨.hbm, 189, rfl⟩
abbrev main_cst_19 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S128 : S_.BroadcastsInDim S128 (![] : Fin 0 → Fin S128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  shapeCasts_S64x1_S64 : S64x1.ShapeCasts S64
  dot_S50000x1_S1x128_S50000x128_1_0_0_1_n_n_wf : DotDims.WF S50000x1 S1x128 S50000x128 [1] [0] [0] [1] [] []
  dot_S800000x1_S1x128_S800000x128_1_0_0_1_n_n_wf : DotDims.WF S800000x1 S1x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x128_S64x128_1_0_0_1_n_n_wf : DotDims.WF S64x128 S128x128 S64x128 [1] [0] [0] [1] [] []
  dot_S64x128_S128x1_S64x1_1_0_0_1_n_n_wf : DotDims.WF S64x128 S128x1 S64x1 [1] [0] [0] [1] [] []

variable [Facts₀]

def dot_S50000x1_S1x128_S50000x128_1_0_0_1_n_n : DotDims S50000x1 S1x128 S50000x128 where
  lhsContracting := [1]
  rhsContracting := [0]
  lhsNonContracting := [0]
  rhsNonContracting := [1]
  lhsBatch := []
  rhsBatch := []
  wf := dot_S50000x1_S1x128_S50000x128_1_0_0_1_n_n_wf
def dot_S800000x1_S1x128_S800000x128_1_0_0_1_n_n : DotDims S800000x1 S1x128 S800000x128 where
  lhsContracting := [1]
  rhsContracting := [0]
  lhsNonContracting := [0]
  rhsNonContracting := [1]
  lhsBatch := []
  rhsBatch := []
  wf := dot_S800000x1_S1x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.K.R0.lean ====
import proofs.«418815_j86294482911410_2_alg».proof.Proof.Gen.Kernel.Launch
import proofs.«418815_j86294482911410_2_alg».proof.Proof.Gen.Kernel.Skeleton
import proofs.«418815_j86294482911410_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S5000x1 := Rect.unit (s := S5000x1) ![0, 0] S5000x1.size inb_S5000x1_S5000x1_0_0

abbrev rRow0 : Rect S1x128 := Rect.unit (s := S1x128) ![0, 0] S1x128.size inb_S1x128_S1x128_0_0

abbrev rOut0 : Rect S5000x128 := Rect.unit (s := S5000x128) ![0, 0] S5000x128.size inb_S5000x128_S5000x128_0_0

def out0_3 (x0 : Vec F S5000x1 .f32) (x1 : Vec F S1x128 .f32) (x2 : Vec F S1x128 .f32) : Vec F S5000x128 .f32 :=
  View.canon [⟨rOut0, k0_pay1 (View.ld x0 rA0) (View.ld x1 rRow0) (View.ld x2 rRow0)⟩]

theorem cover0_3 (p0 : Vec F S5000x128 .f32) (y : S5000x128.Idx) :
    ∃ pc ∈ ([⟨rOut0, p0⟩] : List (View.Piece (Elt F) S5000x128 .f32)), y ∈ pc.1.set :=
  View.cover_of_tiled [⟨rOut0, p0⟩] S5000x128.size (by rfl) y

set_option maxHeartbeats 1000000 in

theorem sound_kernel0 (c : Dev nD) (E : Set ℕ) (i : grid0.Coords) (arg1 : Memref sig .tc .vmem S5000x1 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S5000x128 .f32) (harg4 : arg4.IsWhole)
    (x0 : Vec F S5000x1 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__affine_kernel i arg1 harg1 arg2 harg2 arg3 harg3 arg4 harg4) K := by
  simp only [cc0__affine_kernel_eq_skeleton]; unfold cc0__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

theorem before0 (c : Dev nD) (t : Fin cfg0.N) : ∀ (w : Fin 4) (hw : w ≠ 3) (d), (dat0 V c).before w t d = (dat0 V c).after w t
  | 0, _, d | 1, _, d | 2, _, d => ((dat0 V c).before_in_eq_fetched _ rfl (fun _ => rfl) (fun _ _ _ => rfl) (fun _ => rfl) t d).trans rfl
  | 3, hw, _ => absurd rfl hw

theorem body_obligation0 (c : Dev nD) : BodyObligation (dat0 (F := F) V c) (defs₀ (F := F)) Variants.none () Set.univ := fun t => by
  rw [bigSep_W0, bigSep_W0]
  show _ ⊢ wp frame _ _ (bodyAt0 t) _
  unfold bodyAt0
  simp only [before0 V c t 0 (by decide), before0 V c t 1 (by decide), before0 V c t 2 (by decide)]
  rewrite [show (dat0 V c).Φ t.succ = (dat0 V c).Φ t.castSucc from rfl,
    show (dat0 V c).owesAt () t.succ = (dat0 V c).owesAt () t.castSucc from rfl,
    show (dat0 V c).after 3 t = out0_3 ((dat0 V c).after 0 t) ((dat0 V c).after 1 t) ((dat0 V c).after 2 t) from by dsimp only [dat0]]
  iintro ⟨HΦ, Ho, ⟨%d0, H0⟩, ⟨%d1, H1⟩, ⟨%d2, H2⟩, ⟨%d3, H3⟩⟩
  iapply (sound_kernel0 c Set.univ _ _ _ _ _ _ _ _ _ ((dat0 V c).after 0 t) ((dat0 V c).after 1 t) ((dat0 V c).after 2 t) _)
  iframe H0 H1 H2
  isplitl [H3]; · iexists _; iexact H3
  iintro ⟨H0, H1, H2, H3⟩
  iframe

theorem hin0 (c : Dev nD) : Pipeline.ΦA spec0 c ⊢ (dat0 V c).Φ 0 := .rfl

theorem hout0 (c : Dev nD) : (dat0 V c).Φ (Fin.last cfg0.N) ⊢ Pipeline.ΦA spec0 c := .rfl

end Cert.Kernel.Hand

end
-- ==== Proof.K.R1.lean ====
import proofs.«418815_j86294482911410_2_alg».proof.Proof.Gen.Kernel.Launch
import proofs.«418815_j86294482911410_2_alg».proof.Proof.Gen.Kernel.Skeleton
import proofs.«418815_j86294482911410_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x128 := Rect.unit (s := S2000x128) ![0, 0] S2000x128.size inb_S2000x128_S2000x128_0_0
abbrev r1_1 : Rect S1x1 := Rect.unit (s := S1x1) ![0, 0] S1x1.size inb_S1x1_S1x1_0_0
abbrev r1_2 : Rect S128x128 := Rect.unit (s := S128x128) ![0, 0] S128x128.size inb_S128x128_S128x128_0_0
abbrev r1_3 : Rect S1x128 := Rect.unit (s := S1x128) ![0, 0] S1x128.size inb_S1x128_S1x128_0_0

def out1_11 (x0 x1 : Vec F S2000x128 .f32) (x2 : Vec F S1x1 .f32) (x3 : Vec F S128x128 .f32) (x4 : Vec F S1x128 .f32)
    (x5 : Vec F S128x128 .f32) (x6 x7 x8 x9 x10 : Vec F S1x128 .f32) : Vec F S2000x128 .f32 :=
  View.canon [⟨r1_0, k1_pay1
    (k1_pay2 (View.ld x2 r1_1) (View.ld x0 r1_0) (View.ld x1 r1_0) (View.ld x3 r1_2) (View.ld x5 r1_2) (View.ld x4 r1_3)
      (View.ld x6 r1_3) (View.ld x9 r1_3))
    (View.ld x10 r1_3) (View.ld x7 r1_3) (View.ld x8 r1_3)⟩]

theorem cover1_11 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

set_option maxHeartbeats 4000000 in

theorem sound_kernel1 (c : Dev nD) (E : Set ℕ) {i : grid1.Coords} {arg0 arg1 arg11 : Memref sig .tc .vmem S2000x128 .f32}
    {arg2 : Memref sig .tc .vmem S1x1 .f32} {arg3 arg5 : Memref sig .tc .vmem S128x128 .f32}
    {arg4 arg6 arg7 arg8 arg9 arg10 : Memref sig .tc .vmem S1x128 .f32} {harg0 : arg0.IsWhole} {harg1 : arg1.IsWhole}
    {harg2 : arg2.IsWhole} {harg3 : arg3.IsWhole} {harg4 : arg4.IsWhole} {harg5 : arg5.IsWhole} {harg6 : arg6.IsWhole}
    {harg7 : arg7.IsWhole} {harg8 : arg8.IsWhole} {harg9 : arg9.IsWhole} {harg10 : arg10.IsWhole} {harg11 : arg11.IsWhole}
    (x0 x1 : Vec F S2000x128 .f32) (x2 : Vec F S1x1 .f32) (x3 : Vec F S128x128 .f32) (x4 : Vec F S1x128 .f32)
    (x5 : Vec F S128x128 .f32) (x6 x7 x8 x9 x10 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ owns (c : Thread nD τ) arg10 fullShare x10 ∗ (∃ d, owns (c : Thread nD τ) arg11 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare x9 ∗ owns (c : Thread nD τ) arg10 fullShare x10
            ∗ owns (c : Thread nD τ) arg11 fullShare (out1_11 x0 x1 x2 x3 x4 x5 x6 x7 x8 x9 x10)) -∗ K ⟨⟩))
      ⊢ wp frame (wpE (defs₀ (F := F)) Variants.none c none) E
          (cc1__conv_mlp_kernel i arg0 harg0 arg1 harg1 arg2 harg2 arg3 harg3 arg4 harg4 arg5 harg5 arg6 harg6 arg7 harg7 arg8 harg8
            arg9 harg9 arg10 harg10 arg11 harg11) K := by
  simp only [cc1__conv_mlp_kernel_eq_skeleton]; unfold cc1__conv_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover1_11 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_11 (c : Dev nD) (t : Fin cfg1.N) : (dat1 V c).after 11 t =
    out1_11 (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) (iblk1 V c 10 t) := by dsimp only [dat1]

theorem before1 (c : Dev nD) (t : Fin cfg1.N) (w : Fin 12) (hw : w ≠ 11) (d) : (dat1 V c).before w t d = (dat1 V c).after w t := by
  revert hw d
  fin_cases w <;> intro hw d <;> first
    | exact absurd rfl hw
    | exact ((dat1 V c).before_in_eq_fetched _ rfl (fun _ => rfl) (fun _ _ _ => rfl) (fun _ => rfl) t d).trans rfl

set_option maxHeartbeats 1000000 in
theorem body_obligation1 (c : Dev nD) : BodyObligation (dat1 (F := F) V c) (defs₀ (F := F)) Variants.none () Set.univ := fun t => by
  rw [bigSep_W1, bigSep_W1]
  show _ ⊢ wp frame _ _ (bodyAt1 t) _
  unfold bodyAt1
  simp only [before1 V c t 0 (by decide), before1 V c t 1 (by decide), before1 V c t 2 (by decide), before1 V c t 3 (by decide),
    before1 V c t 4 (by decide), before1 V c t 5 (by decide), before1 V c t 6 (by decide), before1 V c t 7 (by decide),
    before1 V c t 8 (by decide), before1 V c t 9 (by decide), before1 V c t 10 (by decide)]
  rewrite [show (dat1 V c).Φ t.succ = (dat1 V c).Φ t.castSucc from rfl,
    show (dat1 V c).owesAt () t.succ = (dat1 V c).owesAt () t.castSucc from rfl,
    show (dat1 V c).after 11 t = out1_11 ((dat1 V c).after 0 t) ((dat1 V c).after 1 t) ((dat1 V c).after 2 t) ((dat1 V c).after 3 t)
      ((dat1 V c).after 4 t) ((dat1 V c).after 5 t) ((dat1 V c).after 6 t) ((dat1 V c).after 7 t) ((dat1 V c).after 8 t)
      ((dat1 V c).after 9 t) ((dat1 V c).after 10 t) from by dsimp only [dat1]]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩⟩
  iapply (sound_kernel1 c Set.univ
    ((dat1 V c).after 0 t) ((dat1 V c).after 1 t) ((dat1 V c).after 2 t) ((dat1 V c).after 3 t) ((dat1 V c).after 4 t)
    ((dat1 V c).after 5 t) ((dat1 V c).after 6 t) ((dat1 V c).after 7 t) ((dat1 V c).after 8 t) ((dat1 V c).after 9 t)
    ((dat1 V c).after 10 t) _)
  iframe H0 H1 H2 H3 H4 H5 H6 H7 H8 H9 H10
  isplitl [H11]; · iexists _; iexact H11
  iintro ⟨H0, H1, H2, H3, H4, H5, H6, H7, H8, H9, H10, H11⟩
  iframe

theorem hin1 (c : Dev nD) : Pipeline.ΦA spec1 c ⊢ (dat1 V c).Φ 0 := .rfl

theorem hout1 (c : Dev nD) : (dat1 V c).Φ (Fin.last cfg1.N) ⊢ Pipeline.ΦA spec1 c := .rfl

end Cert.Kernel.Hand

end
-- ==== Proof.K.R2.lean ====
import proofs.«418815_j86294482911410_2_alg».proof.Proof.Gen.Kernel.Launch
import proofs.«418815_j86294482911410_2_alg».proof.Proof.Gen.Kernel.Skeleton
import proofs.«418815_j86294482911410_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0
abbrev r2_1 : Rect S1x1 := Rect.unit (s := S1x1) ![0, 0] S1x1.size inb_S1x1_S1x1_0_0
abbrev r2_2 : Rect S128x128 := Rect.unit (s := S128x128) ![0, 0] S128x128.size inb_S128x128_S128x128_0_0
abbrev r2_3 : Rect S1x128 := Rect.unit (s := S1x128) ![0, 0] S1x128.size inb_S1x128_S1x128_0_0

def out2_11 (x0 x1 : Vec F S2000x128 .f32) (x2 : Vec F S1x1 .f32) (x3 : Vec F S128x128 .f32) (x4 : Vec F S1x128 .f32)
    (x5 : Vec F S128x128 .f32) (x6 x7 x8 x9 x10 : Vec F S1x128 .f32) : Vec F S2000x128 .f32 :=
  View.canon [⟨r2_0, k2_pay1
    (k2_pay2 (View.ld x2 r2_1) (View.ld x0 r2_0) (View.ld x1 r2_0) (View.ld x3 r2_2) (View.ld x5 r2_2) (View.ld x4 r2_3)
      (View.ld x6 r2_3) (View.ld x9 r2_3))
    (View.ld x10 r2_3) (View.ld x7 r2_3) (View.ld x8 r2_3)⟩]

theorem cover2_11 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

set_option maxHeartbeats 4000000 in

theorem sound_kernel2 (c : Dev nD) (E : Set ℕ) {i : grid2.Coords} {arg0 arg1 arg11 : Memref sig .tc .vmem S2000x128 .f32}
    {arg2 : Memref sig .tc .vmem S1x1 .f32} {arg3 arg5 : Memref sig .tc .vmem S128x128 .f32}
    {arg4 arg6 arg7 arg8 arg9 arg10 : Memref sig .tc .vmem S1x128 .f32} {harg0 : arg0.IsWhole} {harg1 : arg1.IsWhole}
    {harg2 : arg2.IsWhole} {harg3 : arg3.IsWhole} {harg4 : arg4.IsWhole} {harg5 : arg5.IsWhole} {harg6 : arg6.IsWhole}
    {harg7 : arg7.IsWhole} {harg8 : arg8.IsWhole} {harg9 : arg9.IsWhole} {harg10 : arg10.IsWhole} {harg11 : arg11.IsWhole}
    (x0 x1 : Vec F S2000x128 .f32) (x2 : Vec F S1x1 .f32) (x3 : Vec F S128x128 .f32) (x4 : Vec F S1x128 .f32)
    (x5 : Vec F S128x128 .f32) (x6 x7 x8 x9 x10 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ owns (c : Thread nD τ) arg10 fullShare x10 ∗ (∃ d, owns (c : Thread nD τ) arg11 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare x9 ∗ owns (c : Thread nD τ) arg10 fullShare x10
            ∗ owns (c : Thread nD τ) arg11 fullShare (out2_11 x0 x1 x2 x3 x4 x5 x6 x7 x8 x9 x10)) -∗ K ⟨⟩))
      ⊢ wp frame (wpE (defs₀ (F := F)) Variants.none c none) E
          (cc2__conv_mlp_kernel i arg0 harg0 arg1 harg1 arg2 harg2 arg3 harg3 arg4 harg4 arg5 harg5 arg6 harg6 arg7 harg7 arg8 harg8
            arg9 harg9 arg10 harg10 arg11 harg11) K := by
  simp only [cc2__conv_mlp_kernel_eq_skeleton]; unfold cc2__conv_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover2_11 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => out2_11 (iblk2 V c 0 t) (iblk2 V c 1 t) (iblk2 V c 2 t) (iblk2 V c 3 t) (iblk2 V c 4 t) (iblk2 V c 5 t)
        (iblk2 V c 6 t) (iblk2 V c 7 t) (iblk2 V c 8 t) (iblk2 V c 9 t) (iblk2 V c 10 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_11 (c : Dev nD) (t : Fin cfg2.N) : (dat2 V c).after 11 t =
    out2_11 (iblk2 V c 0 t) (iblk2 V c 1 t) (iblk2 V c 2 t) (iblk2 V c 3 t) (iblk2 V c 4 t) (iblk2 V c 5 t)
      (iblk2 V c 6 t) (iblk2 V c 7 t) (iblk2 V c 8 t) (iblk2 V c 9 t) (iblk2 V c 10 t) := by dsimp only [dat2]

theorem before2 (c : Dev nD) (t : Fin cfg2.N) (w : Fin 12) (hw : w ≠ 11) (d) : (dat2 V c).before w t d = (dat2 V c).after w t := by
  revert hw d
  fin_cases w <;> intro hw d <;> first
    | exact absurd rfl hw
    | exact ((dat2 V c).before_in_eq_fetched _ rfl (fun _ => rfl) (fun _ _ _ => rfl) (fun _ => rfl) t d).trans rfl

set_option maxHeartbeats 1000000 in
theorem body_obligation2 (c : Dev nD) : BodyObligation (dat2 (F := F) V c) (defs₀ (F := F)) Variants.none () Set.univ := fun t => by
  rw [bigSep_W2, bigSep_W2]
  show _ ⊢ wp frame _ _ (bodyAt2 t) _
  unfold bodyAt2
  simp only [before2 V c t 0 (by decide), before2 V c t 1 (by decide), before2 V c t 2 (by decide), before2 V c t 3 (by decide),
    before2 V c t 4 (by decide), before2 V c t 5 (by decide), before2 V c t 6 (by decide), before2 V c t 7 (by decide),
    before2 V c t 8 (by decide), before2 V c t 9 (by decide), before2 V c t 10 (by decide)]
  rewrite [show (dat2 V c).Φ t.succ = (dat2 V c).Φ t.castSucc from rfl,
    show (dat2 V c).owesAt () t.succ = (dat2 V c).owesAt () t.castSucc from rfl,
    show (dat2 V c).after 11 t = out2_11 ((dat2 V c).after 0 t) ((dat2 V c).after 1 t) ((dat2 V c).after 2 t) ((dat2 V c).after 3 t)
      ((dat2 V c).after 4 t) ((dat2 V c).after 5 t) ((dat2 V c).after 6 t) ((dat2 V c).after 7 t) ((dat2 V c).after 8 t)
      ((dat2 V c).after 9 t) ((dat2 V c).after 10 t) from by dsimp only [dat2]]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩⟩
  iapply (sound_kernel2 c Set.univ
    ((dat2 V c).after 0 t) ((dat2 V c).after 1 t) ((dat2 V c).after 2 t) ((dat2 V c).after 3 t) ((dat2 V c).after 4 t)
    ((dat2 V c).after 5 t) ((dat2 V c).after 6 t) ((dat2 V c).after 7 t) ((dat2 V c).after 8 t) ((dat2 V c).after 9 t)
    ((dat2 V c).after 10 t) _)
  iframe H0 H1 H2 H3 H4 H5 H6 H7 H8 H9 H10
  isplitl [H11]; · iexists _; iexact H11
  iintro ⟨H0, H1, H2, H3, H4, H5, H6, H7, H8, H9, H10, H11⟩
  iframe

theorem hin2 (c : Dev nD) : Pipeline.ΦA spec2 c ⊢ (dat2 V c).Φ 0 := .rfl

theorem hout2 (c : Dev nD) : (dat2 V c).Φ (Fin.last cfg2.N) ⊢ Pipeline.ΦA spec2 c := .rfl

end Cert.Kernel.Hand

end
-- ==== Proof.K.R3.lean ====
import proofs.«418815_j86294482911410_2_alg».proof.Proof.Gen.Kernel.Launch
import proofs.«418815_j86294482911410_2_alg».proof.Proof.Gen.Kernel.Skeleton
import proofs.«418815_j86294482911410_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val % 10 = 0 := by decide +kernel

abbrev cond3_1 (i : grid3.Coords) : Prop := k3_cond2 i = 1#1

theorem hcond3_1 : ∀ t : Fin cfg3.N, cond3_1 (grid3.coords t) ↔ t.val % 10 = 9 := by decide +kernel

theorem liveAt3_0 : ∀ t : Fin cfg3.N, cfg3.idle 0 (grid3.coords t) = false := by decide +kernel
theorem liveAt3_1 : ∀ t : Fin cfg3.N, cfg3.idle 1 (grid3.coords t) = false := by decide +kernel

theorem idleAt3_2 : ∀ t : Fin cfg3.N, ¬t.val % 10 = 9 → cfg3.idle 2 (grid3.coords t) = true ∧ (cfg3.win 2).flush t = false := by decide +kernel

theorem liveAt3_2 : ∀ t : Fin cfg3.N, t.val % 10 = 9 → cfg3.idle 2 (grid3.coords t) = false := by decide +kernel

abbrev VO3_2 : View sig .tc .vmem S64x128 .f32 := (Memref.whole cc3_stg2_0 : Memref sig .tc .vmem S64x128 .f32).view

abbrev ms3_0 (t : Fin cfg3.N) : Memref sig .tc .vmem S5000x64 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S64x128 .f32 := win3_2.stage (cfg3.slots t 2)
abbrev hs3_2 (t : Fin cfg3.N) : (ms3_2 t).IsWhole := hstage3_2 ((cfg3.slots t 2).cast nbuf3_2)

abbrev scM3_0 : Memref sig .tc .vmem S64x128 .f32 := Memref.whole cc3_scratch0

abbrev VS3_0 : View sig .tc .vmem S64x128 .f32 := scM3_0.view

abbrev PhiX3 (c : Dev nD) (P : sProp 𝕄) : sProp 𝕄 :=
  iprop(iprop(P ∗ Pipeline.scopedRestBut (Ix := Unit) (Name := ℕ) (U := UR sig nD τ) (Lvl := ℕ) (Val := Elt F) spec3 c [cc3_scratch0]) ∗ (∃ r, prngReg c r))

theorem PhiA3_eq (c : Dev nD) : (Pipeline.ΦA spec3 c : sProp 𝕄) = PhiX3 c iprop(∃ d, owns (c : Thread nD τ) scM3_0 fullShare d) := by
  unfold Pipeline.ΦA; rw [scopedRest3_split]; simp only [scM3_0, owns_whole, PhiX3]; try rfl

section Run

variable (c : Dev nD) (i : grid3.Coords) (arg1 : Memref sig .tc .vmem S5000x64 .bf16) (harg1 : arg1.IsWhole)
  (arg2 : Memref sig .tc .vmem S5000x128 .f32) (harg2 : arg2.IsWhole) (arg3 : Memref sig .tc .vmem S64x128 .f32) (harg3 : arg3.IsWhole)
  (arg4 : Memref sig .tc .vmem S64x128 .f32) (harg4 : arg4.IsWhole)

section A

variable (hc0 : cond3_0 i) (hc1 : ¬cond3_1 i) (x0 : Vec F S5000x64 .bf16) (x1 : Vec F S5000x128 .f32)

set_option maxHeartbeats 1000000 in
noncomputable def kernelRun3_A :
    Σ' (L2 : List (View.Piece (Elt F) S64x128 .f32)), { LS0 : List (View.Piece (Elt F) S64x128 .f32) //
      ∀ (xi2 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc3__pool_kernel i arg1 harg1 arg2 harg2 arg3 harg3 arg4 harg4) K } := by
  refine ⟨[], ?_, fun xi2 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]; · iexists _; iframe H0; ipureintro; exact harg1.read_unread _
    isplitl [H1]; · iexists _; iframe H1; ipureintro; exact harg2.read_unread _
    isplitl [H2]; · iexists _; iframe H2; ipureintro; exact harg3.read_unread _
    iexists _; iexact HS0

def out3_A_2 : Vec F S64x128 .f32 := VO3_2.read (Elt F) (VO3_2.writes (Elt F) VO3_2.junk (kernelRun3_A c i arg1 harg1 arg2 harg2 arg3 harg3 arg4 harg4 hc0 hc1 x0 x1).1)

theorem scover3_A_0 (y : S64x128.Idx) : ∃ pc ∈ (kernelRun3_A c i arg1 harg1 arg2 harg2 arg3 harg3 arg4 harg4 hc0 hc1 x0 x1).2.1, y ∈ pc.1.set :=
  View.cover_of_tiledL (kernelRun3_A c i arg1 harg1 arg2 harg2 arg3 harg3 arg4 harg4 hc0 hc1 x0 x1).2.1 S64x128.size (by sl_kernel_rfl) y

def sout3_A_0 : Vec F S64x128 .f32 := VS3_0.read (Elt F) (VS3_0.writes (Elt F) VS3_0.junk (kernelRun3_A c i arg1 harg1 arg2 harg2 arg3 harg3 arg4 harg4 hc0 hc1 x0 x1).2.1)

end A

section B

variable (hc0 : ¬cond3_0 i) (hc1 : ¬cond3_1 i) (x0 : Vec F S5000x64 .bf16) (x1 : Vec F S5000x128 .f32) (xs0 : Vec F S64x128 .f32)

set_option maxHeartbeats 1000000 in
noncomputable def kernelRun3_B :
    Σ' (L2 : List (View.Piece (Elt F) S64x128 .f32)), { LS0 : List (View.Piece (Elt F) S64x128 .f32) //
      ∀ (xi2 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc3__pool_kernel i arg1 harg1 arg2 harg2 arg3 harg3 arg4 harg4) K } := by
  refine ⟨[], ?_, fun xi2 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]; · iexists _; iframe H0; ipureintro; exact harg1.read_unread _
    isplitl [H1]; · iexists _; iframe H1; ipureintro; exact harg2.read_unread _
    isplitl [H2]; · iexists _; iframe H2; ipureintro; exact harg3.read_unread _
    iexists _; iexact HS0

def out3_B_2 : Vec F S64x128 .f32 := VO3_2.read (Elt F) (VO3_2.writes (Elt F) VO3_2.junk (kernelRun3_B c i arg1 harg1 arg2 harg2 arg3 harg3 arg4 harg4 hc0 hc1 x0 x1 xs0).1)

theorem scover3_B_0 (y : S64x128.Idx) : ∃ pc ∈ (kernelRun3_B c i arg1 harg1 arg2 harg2 arg3 harg3 arg4 harg4 hc0 hc1 x0 x1 xs0).2.1, y ∈ pc.1.set :=
  View.cover_of_tiledL (kernelRun3_B c i arg1 harg1 arg2 harg2 arg3 harg3 arg4 harg4 hc0 hc1 x0 x1 xs0).2.1 S64x128.size (by sl_kernel_rfl) y

def sout3_B_0 : Vec F S64x128 .f32 := VS3_0.read (Elt F) (VS3_0.writes (Elt F) VS3_0.junk (kernelRun3_B c i arg1 harg1 arg2 harg2 arg3 harg3 arg4 harg4 hc0 hc1 x0 x1 xs0).2.1)

end B

section C

variable (hc0 : ¬cond3_0 i) (hc1 : cond3_1 i) (x0 : Vec F S5000x64 .bf16) (x1 : Vec F S5000x128 .f32) (xs0 : Vec F S64x128 .f32)

set_option maxHeartbeats 1000000 in
noncomputable def kernelRun3_C :
    Σ' (L2 : List (View.Piece (Elt F) S64x128 .f32)), { LS0 : List (View.Piece (Elt F) S64x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc3__pool_kernel i arg1 harg1 arg2 harg2 arg3 harg3 arg4 harg4) K } := by
  refine ⟨?_, ?_, fun E K => ?run⟩
  case run =>
    simp only [cc3__pool_kernel_eq_skeleton]; unfold cc3__pool_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]; · iexists _; iframe H0; ipureintro; exact harg1.read_unread _
    isplitl [H1]; · iexists _; iframe H1; ipureintro; exact harg2.read_unread _
    isplitl [H2]; · iexists _; iexact H2
    iexists _; iexact HS0

theorem cover3_C_2 (y : S64x128.Idx) : ∃ pc ∈ (kernelRun3_C c i arg1 harg1 arg2 harg2 arg3 harg3 arg4 harg4 hc0 hc1 x0 x1 xs0).1, y ∈ pc.1.set :=
  View.cover_of_tiledL (kernelRun3_C c i arg1 harg1 arg2 harg2 arg3 harg3 arg4 harg4 hc0 hc1 x0 x1 xs0).1 S64x128.size (by sl_kernel_rfl) y

def out3_C_2 : Vec F S64x128 .f32 := VO3_2.read (Elt F) (VO3_2.writes (Elt F) VO3_2.junk (kernelRun3_C c i arg1 harg1 arg2 harg2 arg3 harg3 arg4 harg4 hc0 hc1 x0 x1 xs0).1)

theorem scover3_C_0 (y : S64x128.Idx) : ∃ pc ∈ (kernelRun3_C c i arg1 harg1 arg2 harg2 arg3 harg3 arg4 harg4 hc0 hc1 x0 x1 xs0).2.1, y ∈ pc.1.set :=
  View.cover_of_tiledL (kernelRun3_C c i arg1 harg1 arg2 harg2 arg3 harg3 arg4 harg4 hc0 hc1 x0 x1 xs0).2.1 S64x128.size (by sl_kernel_rfl) y

def sout3_C_0 : Vec F S64x128 .f32 := VS3_0.read (Elt F) (VS3_0.writes (Elt F) VS3_0.junk (kernelRun3_C c i arg1 harg1 arg2 harg2 arg3 harg3 arg4 harg4 hc0 hc1 x0 x1 xs0).2.1)

end C

end Run

def step3 (c : Dev nD) (t : Fin cfg3.N) (xs : Vec F S64x128 .f32) : Vec F S64x128 .f32 × Vec F S64x128 .f32 :=
  if h0 : t.val % 10 = 0 then
    (out3_A_2 c (grid3.coords t) (ms3_0 t) (hs3_0 t) (ms3_1 t) (hs3_1 t) (ms3_2 t) (hs3_2 t) scM3_0 (Memref.isWhole_whole _) ((hcond3_0 t).mpr h0) (fun h => by have := (hcond3_1 t).mp h; omega) (iblk3 V c 0 t) (iblk3 V c 1 t),
      sout3_A_0 c (grid3.coords t) (ms3_0 t) (hs3_0 t) (ms3_1 t) (hs3_1 t) (ms3_2 t) (hs3_2 t) scM3_0 (Memref.isWhole_whole _) ((hcond3_0 t).mpr h0) (fun h => by have := (hcond3_1 t).mp h; omega) (iblk3 V c 0 t) (iblk3 V c 1 t))
  else if h1 : t.val % 10 = 9 then
    (out3_C_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) xs,
      sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) xs)
  else
    (out3_B_2 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) xs,
      sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) xs)

def outsAt3 (c : Dev nD) : (n : ℕ) → n < cfg3.N → Vec F S64x128 .f32 × Vec F S64x128 .f32
  | 0, hn => step3 V c ⟨0, hn⟩ (VO3_2.read (Elt F) VO3_2.junk)
  | n + 1, hn => step3 V c ⟨n + 1, hn⟩ (outsAt3 c n (Nat.lt_of_succ_lt hn)).2

theorem outsAt3_A (c : Dev nD) (t : Fin cfg3.N) (h0 : t.val % 10 = 0) (h1 : ¬t.val % 10 = 9) :
    outsAt3 V c t.val t.isLt = (out3_A_2 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t), sout3_A_0 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)) := by
  obtain ⟨n, hn⟩ := t
  cases n with
  | zero => rfl
  | succ n => exact dif_pos h0

theorem outsAt3_B (c : Dev nD) (t : Fin cfg3.N) (h0 : ¬t.val % 10 = 0) (h1 : ¬t.val % 10 = 9) :
    outsAt3 V c t.val t.isLt = (out3_B_2 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem outsAt3_C (c : Dev nD) (t : Fin cfg3.N) (h0 : ¬t.val % 10 = 0) (h1 : t.val % 10 = 9) :
    outsAt3 V c t.val t.isLt = (out3_C_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_pos h1)

def PhiS3 (c : Dev nD) : (n : ℕ) → n ≤ cfg3.N → sProp 𝕄
  | 0, _ => Pipeline.ΦA spec3 c
  | n + 1, hn => PhiX3 c (owns (c : Thread nD τ) scM3_0 fullShare (outsAt3 V c n hn).2)

theorem PhiS3_zero (c : Dev nD) (n : ℕ) (h : n ≤ cfg3.N) (hz : n = 0) : PhiS3 V c n h = Pipeline.ΦA spec3 c := by
  subst hz; rfl

theorem PhiS3_pos (c : Dev nD) (n : ℕ) (h : n ≤ cfg3.N) (hz : n ≠ 0) :
    PhiS3 V c n h = PhiX3 c (owns (c : Thread nD τ) scM3_0 fullShare (outsAt3 V c (n - 1) (by omega)).2) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = (outsAt3 V c t.val t.isLt).1 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl

set_option maxHeartbeats 4800000 in
theorem body_obligation3 (c : Dev nD) : BodyObligation (dat3 (F := F) V c) (defs₀ (F := F)) Variants.none () Set.univ := fun t => by
  rw [bigSep_W3, bigSep_W3]
  show _ ⊢ wp frame _ _ (bodyAt3 t) fun _ => iprop(_ ∗ _ ∗ (dat3 V c).leavesExact 0 t ∗ (dat3 V c).leavesExact 1 t ∗ (dat3 V c).leavesExact 2 t)
  unfold bodyAt3
  simp only [before3_0, before3_1]
  rw [show (dat3 V c).owesAt () t.succ = (dat3 V c).owesAt () t.castSucc from rfl,
    show (dat3 V c).Φ t.succ = PhiX3 c (owns (c : Thread nD τ) scM3_0 fullShare (outsAt3 V c t.val t.isLt).2) from rfl,
    show (dat3 V c).Φ t.castSucc = PhiS3 V c t.val (Nat.le_of_lt t.isLt) from rfl,
    show (dat3 V c).leavesExact 0 t = owns (c : Thread nD τ) (ms3_0 t) fullShare (iblk3 V c 0 t) from by
      unfold Dat.leavesExact; rw [liveAt3_0 t]; rfl,
    show (dat3 V c).leavesExact 1 t = owns (c : Thread nD τ) (ms3_1 t) fullShare (iblk3 V c 1 t) from by
      unfold Dat.leavesExact; rw [liveAt3_1 t]; rfl]
  have hN : t.val < 10 := lt_of_lt_of_eq t.isLt (show cfg3.N = 10 from N_3)
  by_cases h1 : t.val % 10 = 9
  · have h0 : ¬t.val % 10 = 0 := by omega
    have hz : t.val ≠ 0 := by omega
    rw [show (dat3 V c).leavesExact 2 t = owns (c : Thread nD τ) (ms3_2 t) fullShare ((dat3 V c).after 2 t) from by
      unfold Dat.leavesExact; rw [liveAt3_2 t h1], after3_2, outsAt3_C V c t h0 h1, PhiS3_pos V c _ _ hz]
    unfold out3_C_2 sout3_C_0 PhiX3; dsimp only
    iintro ⟨⟨⟨HS0, HR⟩, Hg⟩, Ho, ⟨%d0, H0⟩, ⟨%d1, H1⟩, ⟨%d2, H2⟩⟩
    iapply ((kernelRun3_C c (grid3.coords t) _ _ _ _ _ _ _ _ (fun h => h0 ((hcond3_0 t).mp h)) ((hcond3_1 t).mpr h1) (iblk3 V c 0 t) (iblk3 V c 1 t) _).2.2 Set.univ _)
    iframe H0 H1 HS0
    isplitl [H2]; · iexists _; iexact H2
    iintro ⟨H0, H1, ⟨%e2, H2⟩, ⟨%es0, HS0⟩⟩
    iframe HR Hg Ho H0 H1
    isplitl [HS0]
    · ihave H' := (Ring.owns_of_writes_tiledL VS3_0 S64x128.size) $$ HS0; iapply H'; ipureintro; sl_kernel_rfl
    ihave H' := (Ring.owns_of_writes_tiledL VO3_2 S64x128.size) $$ H2; iapply H'; ipureintro; sl_kernel_rfl
  · have hi := Dat.leavesExact_idle (dat3 V c) 2 t (idleAt3_2 t h1).1 (idleAt3_2 t h1).2
    have hn1 : ¬cond3_1 (grid3.coords t) := fun h => h1 ((hcond3_1 t).mp h)
    by_cases h0 : t.val % 10 = 0
    · have hz : t.val = 0 := by omega
      rw [hi, outsAt3_A V c t h0 h1, PhiS3_zero V c _ _ hz, PhiA3_eq]
      unfold sout3_A_0 PhiX3; dsimp only
      iintro ⟨⟨⟨HS0, HR⟩, Hg⟩, Ho, ⟨%d0, H0⟩, ⟨%d1, H1⟩, ⟨%d2, H2⟩⟩
      iapply ((kernelRun3_A c (grid3.coords t) _ _ _ _ _ _ _ _ ((hcond3_0 t).mpr h0) hn1 (iblk3 V c 0 t) (iblk3 V c 1 t)).2.2 _ Set.univ _)
      iframe H0 H1 H2 HS0
      iintro ⟨H0, H1, H2, ⟨%es0, HS0⟩⟩
      iframe HR Hg Ho H0 H1
      isplitl [HS0]
      · ihave H' := (Ring.owns_of_writes_tiledL VS3_0 S64x128.size) $$ HS0; iapply H'; ipureintro; sl_kernel_rfl
      iexists _; iexact H2
    · have hz : t.val ≠ 0 := by omega
      rw [hi, outsAt3_B V c t h0 h1, PhiS3_pos V c _ _ hz]
      unfold sout3_B_0 PhiX3; dsimp only
      iintro ⟨⟨⟨HS0, HR⟩, Hg⟩, Ho, ⟨%d0, H0⟩, ⟨%d1, H1⟩, ⟨%d2, H2⟩⟩
      iapply ((kernelRun3_B c (grid3.coords t) _ _ _ _ _ _ _ _ (fun h => h0 ((hcond3_0 t).mp h)) hn1 (iblk3 V c 0 t) (iblk3 V c 1 t) _).2.2 _ Set.univ _)
      iframe H0 H1 H2 HS0
      iintro ⟨H0, H1, H2, ⟨%es0, HS0⟩⟩
      iframe HR Hg Ho H0 H1
      isplitl [HS0]
      · ihave H' := (Ring.owns_of_writes_tiledL VS3_0 S64x128.size) $$ HS0; iapply H'; ipureintro; sl_kernel_rfl
      iexists _; iexact H2

theorem hin3 (c : Dev nD) : Pipeline.ΦA spec3 c ⊢ (dat3 V c).Φ 0 := .rfl

theorem hout3 (c : Dev nD) : (dat3 V c).Φ (Fin.last cfg3.N) ⊢ Pipeline.ΦA spec3 c := by
  rw [show (dat3 V c).Φ (Fin.last cfg3.N) = PhiS3 V c cfg3.N (Nat.le_refl _) from rfl, PhiS3_pos V c cfg3.N _ (by have : cfg3.N = 10 := N_3; omega), PhiA3_eq]
  unfold PhiX3
  iintro ⟨⟨HS0, HR⟩, Hg⟩
  iframe HR Hg
  iexists _; iexact HS0

end Cert.Kernel.Hand

end
-- ==== Proof.K.R4.lean ====
import proofs.«418815_j86294482911410_2_alg».proof.Proof.Gen.Kernel.Launch
import proofs.«418815_j86294482911410_2_alg».proof.Proof.Gen.Kernel.Skeleton
import proofs.«418815_j86294482911410_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S64x128 := Rect.unit (s := S64x128) ![0, 0] S64x128.size inb_S64x128_S64x128_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0
abbrev r4_3 : Rect S128x1 := Rect.unit (s := S128x1) ![0, 0] S128x1.size inb_S128x1_S128x1_0_0
abbrev r4_4 : Rect S1x1 := Rect.unit (s := S1x1) ![0, 0] S1x1.size inb_S1x1_S1x1_0_0
abbrev r4_5 : Rect S64x1 := Rect.unit (s := S64x1) ![0, 0] S64x1.size inb_S64x1_S64x1_0_0

def out4_5 (x0 : Vec F S64x128 .f32) (x1 : Vec F S128x128 .f32) (x2 : Vec F S1x128 .f32) (x3 : Vec F S128x1 .f32) (x4 : Vec F S1x1 .f32) : Vec F S64x1 .f32 :=
  View.canon [⟨r4_5, k4_pay1 (View.ld x0 r4_0) (View.ld x1 r4_1) (View.ld x3 r4_3) (View.ld x2 r4_2) (View.ld x4 r4_4)⟩]

theorem cover4_5 (p0 : Vec F S64x1 .f32) (y : S64x1.Idx) :
    ∃ pc ∈ ([⟨r4_5, p0⟩] : List (View.Piece (Elt F) S64x1 .f32)), y ∈ pc.1.set :=
  View.cover_of_tiled [⟨r4_5, p0⟩] S64x1.size (by rfl) y

set_option maxHeartbeats 1000000 in

theorem sound_kernel4 (c : Dev nD) (E : Set ℕ) (i : grid4.Coords) (arg1 : Memref sig .tc .vmem S64x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S64x1 .f32) (harg6 : arg6.IsWhole)
    (x0 : Vec F S64x128 .f32) (x1 : Vec F S128x128 .f32) (x2 : Vec F S1x128 .f32) (x3 : Vec F S128x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__head_kernel i arg1 harg1 arg2 harg2 arg3 harg3 arg4 harg4 arg5 harg5 arg6 harg6) K := by
  simp only [cc4__head_kernel_eq_skeleton]; unfold cc4__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4 (c : Dev nD) (t : Fin cfg4.N) : ∀ (w : Fin 6) (hw : w ≠ 5) (d), (dat4 V c).before w t d = (dat4 V c).after w t
  | 0, _, d | 1, _, d | 2, _, d | 3, _, d | 4, _, d =>
    ((dat4 V c).before_in_eq_fetched _ rfl (fun _ => rfl) (fun _ _ _ => rfl) (fun _ => rfl) t d).trans rfl
  | 5, hw, _ => absurd rfl hw

theorem body_obligation4 (c : Dev nD) : BodyObligation (dat4 (F := F) V c) (defs₀ (F := F)) Variants.none () Set.univ := fun t => by
  rw [bigSep_W4, bigSep_W4]
  show _ ⊢ wp frame _ _ (bodyAt4 t) _
  unfold bodyAt4
  simp only [before4 V c t 0 (by decide), before4 V c t 1 (by decide), before4 V c t 2 (by decide), before4 V c t 3 (by decide),
    before4 V c t 4 (by decide)]
  rewrite [show (dat4 V c).Φ t.succ = (dat4 V c).Φ t.castSucc from rfl,
    show (dat4 V c).owesAt () t.succ = (dat4 V c).owesAt () t.castSucc from rfl,
    show (dat4 V c).after 5 t = out4_5 ((dat4 V c).after 0 t) ((dat4 V c).after 1 t) ((dat4 V c).after 2 t) ((dat4 V c).after 3 t)
      ((dat4 V c).after 4 t) from by dsimp only [dat4]]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ ((dat4 V c).after 0 t) ((dat4 V c).after 1 t) ((dat4 V c).after 2 t)
    ((dat4 V c).after 3 t) ((dat4 V c).after 4 t) _)
  iframe H0 H1 H2 H3 H4
  isplitl [H5]; · iexists _; iexact H5
  iintro ⟨H0, H1, H2, H3, H4, H5⟩
  iframe

theorem hin4 (c : Dev nD) : Pipeline.ΦA spec4 c ⊢ (dat4 V c).Φ 0 := .rfl

theorem hout4 (c : Dev nD) : (dat4 V c).Φ (Fin.last cfg4.N) ⊢ Pipeline.ΦA spec4 c := .rfl

end Cert.Kernel.Hand

end
-- ==== Proof.K.Run.lean ====
import proofs.«418815_j86294482911410_2_alg».proof.Proof.Gen.Kernel.Regions
import proofs.«418815_j86294482911410_2_alg».proof.Proof.K.R0
import proofs.«418815_j86294482911410_2_alg».proof.Proof.K.R1
import proofs.«418815_j86294482911410_2_alg».proof.Proof.K.R2
import proofs.«418815_j86294482911410_2_alg».proof.Proof.K.R3
import proofs.«418815_j86294482911410_2_alg».proof.Proof.K.R4
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def setAt (o : Outs (F := F)) (r₀ : Ref sig .tc) (a : (c : Dev nD) → Buf (Elt F) ((c : Thread nD τ).loc r₀)) : Outs (F := F) :=
  fun J r c => if h : r = r₀ then h ▸ a c else o J r c

theorem setAt_self (o : Outs (F := F)) (r₀ : Ref sig .tc) (a : (c : Dev nD) → Buf (Elt F) ((c : Thread nD τ).loc r₀)) (J : ℕ) (c : Dev nD) :
    setAt o r₀ a J r₀ c = a c := by
  unfold setAt; rw [dif_pos rfl]

theorem setAt_ne (o : Outs (F := F)) (r₀ : Ref sig .tc) (a : (c : Dev nD) → Buf (Elt F) ((c : Thread nD τ).loc r₀)) (J : ℕ) {r : Ref sig .tc}
    (hr : r ≠ r₀) (c : Dev nD) : setAt o r₀ a J r c = o J r c := by
  unfold setAt; rw [dif_neg hr]

def outsInit : Outs (F := F) := fun _ r c => m ((c : Thread nD τ).loc r)

def res0 (c : Dev nD) : Buf (Elt F) ((c : Thread nD τ).loc main_v5) := (dat0 (fun c b => V1 m c b) c).arrAt 3 cfg0.N
def outsTo0 : Outs (F := F) := setAt (outsInit m) main_v5 (res0 m)

def res1 (c : Dev nD) : Buf (Elt F) ((c : Thread nD τ).loc main_v31) := (dat1 (fun c b => V5 m (outsTo0 m) c b) c).arrAt 11 cfg1.N
def outsTo1 : Outs (F := F) := setAt (outsTo0 m) main_v31 (res1 m)

def res2 (c : Dev nD) : Buf (Elt F) ((c : Thread nD τ).loc main_v57) := (dat2 (fun c b => V9 m (outsTo1 m) c b) c).arrAt 11 cfg2.N
def outsTo2 : Outs (F := F) := setAt (outsTo1 m) main_v57 (res2 m)

def res3 (c : Dev nD) : Buf (Elt F) ((c : Thread nD τ).loc main_v67) := (dat3 (fun c b => V11 m (outsTo2 m) c b) c).arrAt 2 cfg3.N
def outsTo3 : Outs (F := F) := setAt (outsTo2 m) main_v67 (res3 m)

def res4 (c : Dev nD) : Buf (Elt F) ((c : Thread nD τ).loc main_v75) := (dat4 (fun c b => V13 m (outsTo3 m) c b) c).arrAt 5 cfg4.N

def outs : Outs (F := F) := setAt (outsTo3 m) main_v75 (res4 m)

/-- The valuation a region is entered from reads the final assignment only at earlier regions' results. -/
theorem V5_outs (c : Dev nD) : V5 m (outs m) c = V5 m (outsTo0 m) c := by
  unfold V5 V4 V3 V2 outs outsTo3 outsTo2 outsTo1; simp (config := {decide := true}) only [setAt_ne, setAt_self]
theorem V9_outs (c : Dev nD) : V9 m (outs m) c = V9 m (outsTo1 m) c := by
  unfold V9 V8 V7 V6 V5 V4 V3 V2 outs outsTo3 outsTo2; simp (config := {decide := true}) only [setAt_ne, setAt_self]
theorem V11_outs (c : Dev nD) : V11 m (outs m) c = V11 m (outsTo2 m) c := by
  unfold V11 V10 V9 V8 V7 V6 V5 V4 V3 V2 outs outsTo3; simp (config := {decide := true}) only [setAt_ne, setAt_self]
theorem V13_outs (c : Dev nD) : V13 m (outs m) c = V13 m (outsTo3 m) c := by
  unfold V13 V12 V11 V10 V9 V8 V7 V6 V5 V4 V3 V2 outs; simp (config := {decide := true}) only [setAt_ne, setAt_self]

theorem outs_2 (c : Dev nD) : outs m 2 main_v5 c = (dat0 (fun c b => V1 m c b) c).arrAt 3 cfg0.N := by
  unfold outs outsTo3 outsTo2 outsTo1 outsTo0; simp (config := {decide := true}) only [setAt_ne, setAt_self]; rfl
theorem outs_6 (c : Dev nD) : outs m 6 main_v31 c = (dat1 (fun c b => V5 m (outs m) c b) c).arrAt 11 cfg1.N := by
  rw [funext fun c => V5_outs m c]; unfold outs outsTo3 outsTo2 outsTo1; simp (config := {decide := true}) only [setAt_ne, setAt_self]; rfl
theorem outs_10 (c : Dev nD) : outs m 10 main_v57 c = (dat2 (fun c b => V9 m (outs m) c b) c).arrAt 11 cfg2.N := by
  rw [funext fun c => V9_outs m c]; unfold outs outsTo3 outsTo2; simp (config := {decide := true}) only [setAt_ne, setAt_self]; rfl
theorem outs_12 (c : Dev nD) : outs m 12 main_v67 c = (dat3 (fun c b => V11 m (outs m) c b) c).arrAt 2 cfg3.N := by
  rw [funext fun c => V11_outs m c]; unfold outs outsTo3; simp (config := {decide := true}) only [setAt_ne, setAt_self]; rfl
theorem outs_14 (c : Dev nD) : outs m 14 main_v75 c = (dat4 (fun c b => V13 m (outs m) c b) c).arrAt 5 cfg4.N := by
  rw [funext fun c => V13_outs m c]; unfold outs; simp (config := {decide := true}) only [setAt_ne, setAt_self]; rfl

def pdats : (p : Fin 5) → (c : Dev nD) → Dat τ (Elt F) Unit ℕ (UR sig nD τ) ℕ (cfgs p) c
  | ⟨0, _⟩ => fun c => dat0 (fun c b => V1 m c b) c
  | ⟨1, _⟩ => fun c => dat1 (fun c b => V5 m (outs m) c b) c
  | ⟨2, _⟩ => fun c => dat2 (fun c b => V9 m (outs m) c b) c
  | ⟨3, _⟩ => fun c => dat3 (fun c b => V11 m (outs m) c b) c
  | ⟨4, _⟩ => fun c => dat4 (fun c b => V13 m (outs m) c b) c

local notation "𝒱ₙ" => Variants.none
local notation "𝓛" => (fun _ => ∅ : GSem nD τ sig → Finset Unit)
local notation "𝓵" => (fun _ _ => 0 : GSem nD τ sig → Unit → ℕ)

abbrev restState (c : Dev nD) : sProp 𝕄 :=
  iprop((∃ r, prngReg c r) ∗ ∃ W, owes (c : Thread nD τ) (0 : CellTallies nD τ sig Unit) W)

theorem launch_own : (ownU (initOf (Pipeline.cells cfgs cellOf_inj) (Pipeline.launchToks cfgs cellOf_inj)) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem rest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts 𝓛 𝓵)
      ⊢ (|={Set.univ}=> bigSep Finset.univ (fun c : Dev nD => restState (F := F) c) : sProp 𝕄) := by
  refine Pipeline.initEach 𝓛 𝓵 fun c => ?_
  iintro ⟨⟨-, HO, -, Hp, -⟩, -⟩
  imodintro
  isplitl [Hp]; · iexists _; iexact Hp
  iexists ∅; iexact HO

theorem rest_end (c : Dev nD) : restState (F := F) c ⊢ (iprop(∃ W, owes (c : Thread nD τ) (0 : CellTallies nD τ sig Unit) W) : sProp 𝕄) := by
  iintro ⟨-, HO⟩; iexact HO

set_option backward.isDefEq.respectTransparency.types false in
/-- Every launch is framed alike: its arrays at the entry valuation before, at the exit valuation after, all else kept. -/
def regOf (p : Fin 5) (lf : Pipeline.LaunchFacts (nD := nD) (τ := τ) cfgs p) (Vi Vo : Dev nD → Valuation τ sig (Elt F))
    (hbody : ∀ c, BodyObligation (pdats m p c) (defs₀ (F := F)) 𝒱ₙ () Set.univ)
    (hA : ∀ c w, (pdats m p c).A w = Vi c (Pipeline.arrRef (pcfgs (F := F) p).spec w))
    (hq : ∀ c w, (pdats m p c).q w = fullShare) (howed : ∀ c t, (pdats m p c).owed t = 0)
    (hrec : ∀ c, (pdats m p c).recorded 0 = Set.univ)
    (hin : ∀ c, Pipeline.ΦA (cfgs p).spec c ⊢ (pdats m p c).Φ 0)
    (hout : ∀ c, (pdats m p c).Φ (Fin.last (cfgs p).N) ⊢ Pipeline.ΦA (cfgs p).spec c)
    (wo : Fin (cfgs p).W) (hio : ∀ w, w ≠ wo → ((cfgs p).win w).isOut = false)
    (hVo : ∀ c, Vo c = Function.update (Vi c) (Pipeline.arrRef (cfgs p).spec wo) ((pdats m p c).arrAt wo (cfgs p).N)) :
    Pipeline.RegionSeg (pcfgs (F := F)) adm (pdats m) () defs₀ 𝒱ₙ 𝓛 𝓵 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ 𝓛 𝓵 p howed
  pre c := iprop(StableHlo.held (c : Thread nD τ) (Pipeline.ucRefs τ sig) (Vi c) ∗ restState c)
  post c := iprop(StableHlo.held (c : Thread nD τ) (Pipeline.ucRefs τ sig) (Vo c) ∗ restState c)
  X c := iprop(∃ r, prngReg c r)
  Y c := iprop(∃ r, prngReg c r)
  Z c := Pipeline.unscopedRest (Ix := Unit) (Name := ℕ) (U := UR sig nD τ) (Lvl := ℕ) (cfgs p).spec c (fun b => Vi c b)
  hentry c := by
    rw [Pipeline.ownSems0_none]
    have hsplit := Pipeline.arrays_of_unscopedBufs (p := p) (pcfgs (F := F)) adm (pdats m) lf.win lf.arr_whole c
      ((pdats m p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (by rw [hrec c]; trivial)
      iexact HO
    isplitl [Hp]; · iexact Hp
    iexact Hrest
  hin c := by
    refine .trans ?_ (hin c); unfold Pipeline.ΦA
    iintro ⟨Hp, -, Hr⟩
    isplitl [Hr]; · iexact Hr
    iexact Hp
  hout c := by
    rw [Pipeline.ownSems0_none]; refine (hout c).trans ?_; unfold Pipeline.ΦA
    iintro ⟨Hr, Hp⟩
    isplitl [Hp]; · iexact Hp
    isplitr; · iempintro
    iexact Hr
  hexit c := by
    have hF : ∀ w, (pdats m p c).arrAt w (cfgs p).N = Vo c (Pipeline.arrRef (cfgs p).spec w) := fun w => by
      rw [hVo]
      by_cases hw : w = wo
      · subst hw; rw [Function.update_self]
      · exact ((Dat.arrAt_in _ w (hio w hw) _).trans (hA c w)).trans
          (Function.update_of_ne (fun h => hw (lf.win.arr_inj (Proc.devRef_injective _ h))) _ _).symm
    have hrest : ∀ b : Ref sig .tc, b ∉ Finset.univ.image (Pipeline.arrRef (cfgs p).spec) → Vo c b = Vi c b := fun b hb => by
      rw [hVo]; exact Function.update_of_ne (fun h => hb (Finset.mem_image.mpr ⟨wo, Finset.mem_univ _, (Proc.devRef_injective _ h).symm⟩)) _ _
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Vi c b) (fun b => Vo c b) ((pdats m p c).arrAt · (cfgs p).N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 : Pipeline.RegionSeg (pcfgs (F := F)) adm (pdats m) () defs₀ 𝒱ₙ 𝓛 𝓵 0 :=
  regOf m 0 launch0 (fun c => V1 m c) (fun c => V2 m (outs m) c) (body_obligation0 (fun c b => V1 m c b))
    (fun _ _ => rfl) (fun _ _ => rfl) (fun _ _ => rfl) (fun _ => rfl) (hin0 (fun c b => V1 m c b)) (hout0 (fun c b => V1 m c b)) 3 (by decide) (fun c => congrArg (Function.update _ _) (outs_2 m c))

def reg1 : Pipeline.RegionSeg (pcfgs (F := F)) adm (pdats m) () defs₀ 𝒱ₙ 𝓛 𝓵 1 :=
  regOf m 1 launch1 (fun c => V5 m (outs m) c) (fun c => V6 m (outs m) c) (body_obligation1 (fun c b => V5 m (outs m) c b))
    (fun _ _ => rfl) (fun _ _ => rfl) (fun _ _ => rfl) (fun _ => rfl) (hin1 (fun c b => V5 m (outs m) c b)) (hout1 (fun c b => V5 m (outs m) c b)) 11 (by decide) (fun c => congrArg (Function.update _ _) (outs_6 m c))

def reg2 : Pipeline.RegionSeg (pcfgs (F := F)) adm (pdats m) () defs₀ 𝒱ₙ 𝓛 𝓵 2 :=
  regOf m 2 launch2 (fun c => V9 m (outs m) c) (fun c => V10 m (outs m) c) (body_obligation2 (fun c b => V9 m (outs m) c b))
    (fun _ _ => rfl) (fun _ _ => rfl) (fun _ _ => rfl) (fun _ => rfl) (hin2 (fun c b => V9 m (outs m) c b)) (hout2 (fun c b => V9 m (outs m) c b)) 11 (by decide) (fun c => congrArg (Function.update _ _) (outs_10 m c))

def reg3 : Pipeline.RegionSeg (pcfgs (F := F)) adm (pdats m) () defs₀ 𝒱ₙ 𝓛 𝓵 3 :=
  regOf m 3 launch3 (fun c => V11 m (outs m) c) (fun c => V12 m (outs m) c) (body_obligation3 (fun c b => V11 m (outs m) c b))
    (fun _ _ => rfl) (fun _ _ => rfl) (fun _ _ => rfl) (fun _ => rfl) (hin3 (fun c b => V11 m (outs m) c b)) (hout3 (fun c b => V11 m (outs m) c b)) 2 (by decide) (fun c => congrArg (Function.update _ _) (outs_12 m c))

def reg4 : Pipeline.RegionSeg (pcfgs (F := F)) adm (pdats m) () defs₀ 𝒱ₙ 𝓛 𝓵 4 :=
  regOf m 4 launch4 (fun c => V13 m (outs m) c) (fun c => V14 m (outs m) c) (body_obligation4 (fun c b => V13 m (outs m) c b))
    (fun _ _ => rfl) (fun _ _ => rfl) (fun _ _ => rfl) (fun _ => rfl) (hin4 (fun c b => V13 m (outs m) c b)) (hout4 (fun c b => V13 m (outs m) c b)) 5 (by decide) (fun c => congrArg (Function.update _ _) (outs_14 m c))

def frame (ρ : Dev nD → PrngReg) :=
  frame_cond m (emb₁ : Emb (UR sig nD τ) 𝕄) () 𝒱ₙ 𝓛 𝓵 (fun _ _ => rfl) ρ (outs m) (pdats m) 0 (fun _ => iprop(emp))
    (initOf (Pipeline.cells cfgs cellOf_inj) (Pipeline.launchToks cfgs cellOf_inj)) launch_own
    (fun _ c => restState c) (rest_init ρ) rest_end
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl)

end Cert.Kernel.Hand

end
-- ==== Proof.KI.R0.lean ====
import proofs.«418815_j86294482911410_2_alg».proof.Proof.Gen.KernelIdeal.Launch
import proofs.«418815_j86294482911410_2_alg».proof.Proof.Gen.KernelIdeal.Skeleton
import proofs.«418815_j86294482911410_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S5000x1 := Rect.unit (s := S5000x1) ![0, 0] S5000x1.size inb_S5000x1_S5000x1_0_0

abbrev rRow0 : Rect S1x128 := Rect.unit (s := S1x128) ![0, 0] S1x128.size inb_S1x128_S1x128_0_0

abbrev rOut0 : Rect S5000x128 := Rect.unit (s := S5000x128) ![0, 0] S5000x128.size inb_S5000x128_S5000x128_0_0

def out0_3 (x0 : Vec F S5000x1 .f32) (x1 : Vec F S1x128 .f32) (x2 : Vec F S1x128 .f32) : Vec F S5000x128 .f32 :=
  View.canon [⟨rOut0, k0_pay1 (View.ld x0 rA0) (View.ld x1 rRow0) (View.ld x2 rRow0)⟩]

theorem cover0_3 (p0 : Vec F S5000x128 .f32) (y : S5000x128.Idx) :
    ∃ pc ∈ ([⟨rOut0, p0⟩] : List (View.Piece (Elt F) S5000x128 .f32)), y ∈ pc.1.set :=
  View.cover_of_tiled [⟨rOut0, p0⟩] S5000x128.size (by rfl) y

set_option maxHeartbeats 1000000 in

theorem sound_kernel0 (c : Dev nD) (E : Set ℕ) (i : grid0.Coords) (arg1 : Memref sig .tc .vmem S5000x1 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S5000x128 .f32) (harg4 : arg4.IsWhole)
    (x0 : Vec F S5000x1 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__affine_kernel i arg1 harg1 arg2 harg2 arg3 harg3 arg4 harg4) K := by
  simp only [cc0__affine_kernel_eq_skeleton]; unfold cc0__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

theorem before0 (c : Dev nD) (t : Fin cfg0.N) : ∀ (w : Fin 4) (hw : w ≠ 3) (d), (dat0 V c).before w t d = (dat0 V c).after w t
  | 0, _, d | 1, _, d | 2, _, d => ((dat0 V c).before_in_eq_fetched _ rfl (fun _ => rfl) (fun _ _ _ => rfl) (fun _ => rfl) t d).trans rfl
  | 3, hw, _ => absurd rfl hw

theorem body_obligation0 (c : Dev nD) : BodyObligation (dat0 (F := F) V c) (defs₀ (F := F)) Variants.none () Set.univ := fun t => by
  rw [bigSep_W0, bigSep_W0]
  show _ ⊢ wp frame _ _ (bodyAt0 t) _
  unfold bodyAt0
  simp only [before0 V c t 0 (by decide), before0 V c t 1 (by decide), before0 V c t 2 (by decide)]
  rewrite [show (dat0 V c).Φ t.succ = (dat0 V c).Φ t.castSucc from rfl,
    show (dat0 V c).owesAt () t.succ = (dat0 V c).owesAt () t.castSucc from rfl,
    show (dat0 V c).after 3 t = out0_3 ((dat0 V c).after 0 t) ((dat0 V c).after 1 t) ((dat0 V c).after 2 t) from by dsimp only [dat0]]
  iintro ⟨HΦ, Ho, ⟨%d0, H0⟩, ⟨%d1, H1⟩, ⟨%d2, H2⟩, ⟨%d3, H3⟩⟩
  iapply (sound_kernel0 c Set.univ _ _ _ _ _ _ _ _ _ ((dat0 V c).after 0 t) ((dat0 V c).after 1 t) ((dat0 V c).after 2 t) _)
  iframe H0 H1 H2
  isplitl [H3]; · iexists _; iexact H3
  iintro ⟨H0, H1, H2, H3⟩
  iframe

theorem hin0 (c : Dev nD) : Pipeline.ΦA spec0 c ⊢ (dat0 V c).Φ 0 := .rfl

theorem hout0 (c : Dev nD) : (dat0 V c).Φ (Fin.last cfg0.N) ⊢ Pipeline.ΦA spec0 c := .rfl

end Cert.KernelIdeal.Hand

end
-- ==== Proof.KI.R1.lean ====
import proofs.«418815_j86294482911410_2_alg».proof.Proof.Gen.KernelIdeal.Launch
import proofs.«418815_j86294482911410_2_alg».proof.Proof.Gen.KernelIdeal.Skeleton
import proofs.«418815_j86294482911410_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x128 := Rect.unit (s := S2000x128) ![0, 0] S2000x128.size inb_S2000x128_S2000x128_0_0
abbrev r1_1 : Rect S1x1 := Rect.unit (s := S1x1) ![0, 0] S1x1.size inb_S1x1_S1x1_0_0
abbrev r1_2 : Rect S128x128 := Rect.unit (s := S128x128) ![0, 0] S128x128.size inb_S128x128_S128x128_0_0
abbrev r1_3 : Rect S1x128 := Rect.unit (s := S1x128) ![0, 0] S1x128.size inb_S1x128_S1x128_0_0

def out1_11 (x0 x1 : Vec F S2000x128 .f32) (x2 : Vec F S1x1 .f32) (x3 : Vec F S128x128 .f32) (x4 : Vec F S1x128 .f32)
    (x5 : Vec F S128x128 .f32) (x6 x7 x8 x9 x10 : Vec F S1x128 .f32) : Vec F S2000x128 .f32 :=
  View.canon [⟨r1_0, k1_pay1
    (k1_pay2 (View.ld x2 r1_1) (View.ld x0 r1_0) (View.ld x1 r1_0) (View.ld x3 r1_2) (View.ld x5 r1_2) (View.ld x4 r1_3)
      (View.ld x6 r1_3) (View.ld x9 r1_3))
    (View.ld x10 r1_3) (View.ld x7 r1_3) (View.ld x8 r1_3)⟩]

theorem cover1_11 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

set_option maxHeartbeats 4000000 in

theorem sound_kernel1 (c : Dev nD) (E : Set ℕ) {i : grid1.Coords} {arg0 arg1 arg11 : Memref sig .tc .vmem S2000x128 .f32}
    {arg2 : Memref sig .tc .vmem S1x1 .f32} {arg3 arg5 : Memref sig .tc .vmem S128x128 .f32}
    {arg4 arg6 arg7 arg8 arg9 arg10 : Memref sig .tc .vmem S1x128 .f32} {harg0 : arg0.IsWhole} {harg1 : arg1.IsWhole}
    {harg2 : arg2.IsWhole} {harg3 : arg3.IsWhole} {harg4 : arg4.IsWhole} {harg5 : arg5.IsWhole} {harg6 : arg6.IsWhole}
    {harg7 : arg7.IsWhole} {harg8 : arg8.IsWhole} {harg9 : arg9.IsWhole} {harg10 : arg10.IsWhole} {harg11 : arg11.IsWhole}
    (x0 x1 : Vec F S2000x128 .f32) (x2 : Vec F S1x1 .f32) (x3 : Vec F S128x128 .f32) (x4 : Vec F S1x128 .f32)
    (x5 : Vec F S128x128 .f32) (x6 x7 x8 x9 x10 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ owns (c : Thread nD τ) arg10 fullShare x10 ∗ (∃ d, owns (c : Thread nD τ) arg11 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare x9 ∗ owns (c : Thread nD τ) arg10 fullShare x10
            ∗ owns (c : Thread nD τ) arg11 fullShare (out1_11 x0 x1 x2 x3 x4 x5 x6 x7 x8 x9 x10)) -∗ K ⟨⟩))
      ⊢ wp frame (wpE (defs₀ (F := F)) Variants.none c none) E
          (cc1__conv_mlp_kernel i arg0 harg0 arg1 harg1 arg2 harg2 arg3 harg3 arg4 harg4 arg5 harg5 arg6 harg6 arg7 harg7 arg8 harg8
            arg9 harg9 arg10 harg10 arg11 harg11) K := by
  simp only [cc1__conv_mlp_kernel_eq_skeleton]; unfold cc1__conv_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover1_11 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_11 (c : Dev nD) (t : Fin cfg1.N) : (dat1 V c).after 11 t =
    out1_11 (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) (iblk1 V c 10 t) := by dsimp only [dat1]

theorem before1 (c : Dev nD) (t : Fin cfg1.N) (w : Fin 12) (hw : w ≠ 11) (d) : (dat1 V c).before w t d = (dat1 V c).after w t := by
  revert hw d
  fin_cases w <;> intro hw d <;> first
    | exact absurd rfl hw
    | exact ((dat1 V c).before_in_eq_fetched _ rfl (fun _ => rfl) (fun _ _ _ => rfl) (fun _ => rfl) t d).trans rfl

set_option maxHeartbeats 1000000 in
theorem body_obligation1 (c : Dev nD) : BodyObligation (dat1 (F := F) V c) (defs₀ (F := F)) Variants.none () Set.univ := fun t => by
  rw [bigSep_W1, bigSep_W1]
  show _ ⊢ wp frame _ _ (bodyAt1 t) _
  unfold bodyAt1
  simp only [before1 V c t 0 (by decide), before1 V c t 1 (by decide), before1 V c t 2 (by decide), before1 V c t 3 (by decide),
    before1 V c t 4 (by decide), before1 V c t 5 (by decide), before1 V c t 6 (by decide), before1 V c t 7 (by decide),
    before1 V c t 8 (by decide), before1 V c t 9 (by decide), before1 V c t 10 (by decide)]
  rewrite [show (dat1 V c).Φ t.succ = (dat1 V c).Φ t.castSucc from rfl,
    show (dat1 V c).owesAt () t.succ = (dat1 V c).owesAt () t.castSucc from rfl,
    show (dat1 V c).after 11 t = out1_11 ((dat1 V c).after 0 t) ((dat1 V c).after 1 t) ((dat1 V c).after 2 t) ((dat1 V c).after 3 t)
      ((dat1 V c).after 4 t) ((dat1 V c).after 5 t) ((dat1 V c).after 6 t) ((dat1 V c).after 7 t) ((dat1 V c).after 8 t)
      ((dat1 V c).after 9 t) ((dat1 V c).after 10 t) from by dsimp only [dat1]]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩⟩
  iapply (sound_kernel1 c Set.univ
    ((dat1 V c).after 0 t) ((dat1 V c).after 1 t) ((dat1 V c).after 2 t) ((dat1 V c).after 3 t) ((dat1 V c).after 4 t)
    ((dat1 V c).after 5 t) ((dat1 V c).after 6 t) ((dat1 V c).after 7 t) ((dat1 V c).after 8 t) ((dat1 V c).after 9 t)
    ((dat1 V c).after 10 t) _)
  iframe H0 H1 H2 H3 H4 H5 H6 H7 H8 H9 H10
  isplitl [H11]; · iexists _; iexact H11
  iintro ⟨H0, H1, H2, H3, H4, H5, H6, H7, H8, H9, H10, H11⟩
  iframe

theorem hin1 (c : Dev nD) : Pipeline.ΦA spec1 c ⊢ (dat1 V c).Φ 0 := .rfl

theorem hout1 (c : Dev nD) : (dat1 V c).Φ (Fin.last cfg1.N) ⊢ Pipeline.ΦA spec1 c := .rfl

end Cert.KernelIdeal.Hand

end
-- ==== Proof.KI.R2.lean ====
import proofs.«418815_j86294482911410_2_alg».proof.Proof.Gen.KernelIdeal.Launch
import proofs.«418815_j86294482911410_2_alg».proof.Proof.Gen.KernelIdeal.Skeleton
import proofs.«418815_j86294482911410_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0
abbrev r2_1 : Rect S1x1 := Rect.unit (s := S1x1) ![0, 0] S1x1.size inb_S1x1_S1x1_0_0
abbrev r2_2 : Rect S128x128 := Rect.unit (s := S128x128) ![0, 0] S128x128.size inb_S128x128_S128x128_0_0
abbrev r2_3 : Rect S1x128 := Rect.unit (s := S1x128) ![0, 0] S1x128.size inb_S1x128_S1x128_0_0

def out2_11 (x0 x1 : Vec F S2000x128 .f32) (x2 : Vec F S1x1 .f32) (x3 : Vec F S128x128 .f32) (x4 : Vec F S1x128 .f32)
    (x5 : Vec F S128x128 .f32) (x6 x7 x8 x9 x10 : Vec F S1x128 .f32) : Vec F S2000x128 .f32 :=
  View.canon [⟨r2_0, k2_pay1
    (k2_pay2 (View.ld x2 r2_1) (View.ld x0 r2_0) (View.ld x1 r2_0) (View.ld x3 r2_2) (View.ld x5 r2_2) (View.ld x4 r2_3)
      (View.ld x6 r2_3) (View.ld x9 r2_3))
    (View.ld x10 r2_3) (View.ld x7 r2_3) (View.ld x8 r2_3)⟩]

theorem cover2_11 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

set_option maxHeartbeats 4000000 in

theorem sound_kernel2 (c : Dev nD) (E : Set ℕ) {i : grid2.Coords} {arg0 arg1 arg11 : Memref sig .tc .vmem S2000x128 .f32}
    {arg2 : Memref sig .tc .vmem S1x1 .f32} {arg3 arg5 : Memref sig .tc .vmem S128x128 .f32}
    {arg4 arg6 arg7 arg8 arg9 arg10 : Memref sig .tc .vmem S1x128 .f32} {harg0 : arg0.IsWhole} {harg1 : arg1.IsWhole}
    {harg2 : arg2.IsWhole} {harg3 : arg3.IsWhole} {harg4 : arg4.IsWhole} {harg5 : arg5.IsWhole} {harg6 : arg6.IsWhole}
    {harg7 : arg7.IsWhole} {harg8 : arg8.IsWhole} {harg9 : arg9.IsWhole} {harg10 : arg10.IsWhole} {harg11 : arg11.IsWhole}
    (x0 x1 : Vec F S2000x128 .f32) (x2 : Vec F S1x1 .f32) (x3 : Vec F S128x128 .f32) (x4 : Vec F S1x128 .f32)
    (x5 : Vec F S128x128 .f32) (x6 x7 x8 x9 x10 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ owns (c : Thread nD τ) arg10 fullShare x10 ∗ (∃ d, owns (c : Thread nD τ) arg11 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare x9 ∗ owns (c : Thread nD τ) arg10 fullShare x10
            ∗ owns (c : Thread nD τ) arg11 fullShare (out2_11 x0 x1 x2 x3 x4 x5 x6 x7 x8 x9 x10)) -∗ K ⟨⟩))
      ⊢ wp frame (wpE (defs₀ (F := F)) Variants.none c none) E
          (cc2__conv_mlp_kernel i arg0 harg0 arg1 harg1 arg2 harg2 arg3 harg3 arg4 harg4 arg5 harg5 arg6 harg6 arg7 harg7 arg8 harg8
            arg9 harg9 arg10 harg10 arg11 harg11) K := by
  simp only [cc2__conv_mlp_kernel_eq_skeleton]; unfold cc2__conv_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover2_11 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => out2_11 (iblk2 V c 0 t) (iblk2 V c 1 t) (iblk2 V c 2 t) (iblk2 V c 3 t) (iblk2 V c 4 t) (iblk2 V c 5 t)
        (iblk2 V c 6 t) (iblk2 V c 7 t) (iblk2 V c 8 t) (iblk2 V c 9 t) (iblk2 V c 10 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_11 (c : Dev nD) (t : Fin cfg2.N) : (dat2 V c).after 11 t =
    out2_11 (iblk2 V c 0 t) (iblk2 V c 1 t) (iblk2 V c 2 t) (iblk2 V c 3 t) (iblk2 V c 4 t) (iblk2 V c 5 t)
      (iblk2 V c 6 t) (iblk2 V c 7 t) (iblk2 V c 8 t) (iblk2 V c 9 t) (iblk2 V c 10 t) := by dsimp only [dat2]

theorem before2 (c : Dev nD) (t : Fin cfg2.N) (w : Fin 12) (hw : w ≠ 11) (d) : (dat2 V c).before w t d = (dat2 V c).after w t := by
  revert hw d
  fin_cases w <;> intro hw d <;> first
    | exact absurd rfl hw
    | exact ((dat2 V c).before_in_eq_fetched _ rfl (fun _ => rfl) (fun _ _ _ => rfl) (fun _ => rfl) t d).trans rfl

set_option maxHeartbeats 1000000 in
theorem body_obligation2 (c : Dev nD) : BodyObligation (dat2 (F := F) V c) (defs₀ (F := F)) Variants.none () Set.univ := fun t => by
  rw [bigSep_W2, bigSep_W2]
  show _ ⊢ wp frame _ _ (bodyAt2 t) _
  unfold bodyAt2
  simp only [before2 V c t 0 (by decide), before2 V c t 1 (by decide), before2 V c t 2 (by decide), before2 V c t 3 (by decide),
    before2 V c t 4 (by decide), before2 V c t 5 (by decide), before2 V c t 6 (by decide), before2 V c t 7 (by decide),
    before2 V c t 8 (by decide), before2 V c t 9 (by decide), before2 V c t 10 (by decide)]
  rewrite [show (dat2 V c).Φ t.succ = (dat2 V c).Φ t.castSucc from rfl,
    show (dat2 V c).owesAt () t.succ = (dat2 V c).owesAt () t.castSucc from rfl,
    show (dat2 V c).after 11 t = out2_11 ((dat2 V c).after 0 t) ((dat2 V c).after 1 t) ((dat2 V c).after 2 t) ((dat2 V c).after 3 t)
      ((dat2 V c).after 4 t) ((dat2 V c).after 5 t) ((dat2 V c).after 6 t) ((dat2 V c).after 7 t) ((dat2 V c).after 8 t)
      ((dat2 V c).after 9 t) ((dat2 V c).after 10 t) from by dsimp only [dat2]]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩⟩
  iapply (sound_kernel2 c Set.univ
    ((dat2 V c).after 0 t) ((dat2 V c).after 1 t) ((dat2 V c).after 2 t) ((dat2 V c).after 3 t) ((dat2 V c).after 4 t)
    ((dat2 V c).after 5 t) ((dat2 V c).after 6 t) ((dat2 V c).after 7 t) ((dat2 V c).after 8 t) ((dat2 V c).after 9 t)
    ((dat2 V c).after 10 t) _)
  iframe H0 H1 H2 H3 H4 H5 H6 H7 H8 H9 H10
  isplitl [H11]; · iexists _; iexact H11
  iintro ⟨H0, H1, H2, H3, H4, H5, H6, H7, H8, H9, H10, H11⟩
  iframe

theorem hin2 (c : Dev nD) : Pipeline.ΦA spec2 c ⊢ (dat2 V c).Φ 0 := .rfl

theorem hout2 (c : Dev nD) : (dat2 V c).Φ (Fin.last cfg2.N) ⊢ Pipeline.ΦA spec2 c := .rfl

end Cert.KernelIdeal.Hand

end
-- ==== Proof.KI.R3.lean ====
import proofs.«418815_j86294482911410_2_alg».proof.Proof.Gen.KernelIdeal.Launch
import proofs.«418815_j86294482911410_2_alg».proof.Proof.Gen.KernelIdeal.Skeleton
import proofs.«418815_j86294482911410_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val % 10 = 0 := by decide +kernel

abbrev cond3_1 (i : grid3.Coords) : Prop := k3_cond2 i = 1#1

theorem hcond3_1 : ∀ t : Fin cfg3.N, cond3_1 (grid3.coords t) ↔ t.val % 10 = 9 := by decide +kernel

theorem liveAt3_0 : ∀ t : Fin cfg3.N, cfg3.idle 0 (grid3.coords t) = false := by decide +kernel
theorem liveAt3_1 : ∀ t : Fin cfg3.N, cfg3.idle 1 (grid3.coords t) = false := by decide +kernel

theorem idleAt3_2 : ∀ t : Fin cfg3.N, ¬t.val % 10 = 9 → cfg3.idle 2 (grid3.coords t) = true ∧ (cfg3.win 2).flush t = false := by decide +kernel

theorem liveAt3_2 : ∀ t : Fin cfg3.N, t.val % 10 = 9 → cfg3.idle 2 (grid3.coords t) = false := by decide +kernel

abbrev VO3_2 : View sig .tc .vmem S64x128 .f32 := (Memref.whole cc3_stg2_0 : Memref sig .tc .vmem S64x128 .f32).view

abbrev ms3_0 (t : Fin cfg3.N) : Memref sig .tc .vmem S5000x64 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S64x128 .f32 := win3_2.stage (cfg3.slots t 2)
abbrev hs3_2 (t : Fin cfg3.N) : (ms3_2 t).IsWhole := hstage3_2 ((cfg3.slots t 2).cast nbuf3_2)

abbrev scM3_0 : Memref sig .tc .vmem S64x128 .f32 := Memref.whole cc3_scratch0

abbrev VS3_0 : View sig .tc .vmem S64x128 .f32 := scM3_0.view

abbrev PhiX3 (c : Dev nD) (P : sProp 𝕄) : sProp 𝕄 :=
  iprop(iprop(P ∗ Pipeline.scopedRestBut (Ix := Unit) (Name := ℕ) (U := UR sig nD τ) (Lvl := ℕ) (Val := Elt F) spec3 c [cc3_scratch0]) ∗ (∃ r, prngReg c r))

theorem PhiA3_eq (c : Dev nD) : (Pipeline.ΦA spec3 c : sProp 𝕄) = PhiX3 c iprop(∃ d, owns (c : Thread nD τ) scM3_0 fullShare d) := by
  unfold Pipeline.ΦA; rw [scopedRest3_split]; simp only [scM3_0, owns_whole, PhiX3]; try rfl

section Run

variable (c : Dev nD) (i : grid3.Coords) (arg1 : Memref sig .tc .vmem S5000x64 .bf16) (harg1 : arg1.IsWhole)
  (arg2 : Memref sig .tc .vmem S5000x128 .f32) (harg2 : arg2.IsWhole) (arg3 : Memref sig .tc .vmem S64x128 .f32) (harg3 : arg3.IsWhole)
  (arg4 : Memref sig .tc .vmem S64x128 .f32) (harg4 : arg4.IsWhole)

section A

variable (hc0 : cond3_0 i) (hc1 : ¬cond3_1 i) (x0 : Vec F S5000x64 .bf16) (x1 : Vec F S5000x128 .f32)

set_option maxHeartbeats 1000000 in
noncomputable def kernelRun3_A :
    Σ' (L2 : List (View.Piece (Elt F) S64x128 .f32)), { LS0 : List (View.Piece (Elt F) S64x128 .f32) //
      ∀ (xi2 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc3__pool_kernel i arg1 harg1 arg2 harg2 arg3 harg3 arg4 harg4) K } := by
  refine ⟨[], ?_, fun xi2 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]; · iexists _; iframe H0; ipureintro; exact harg1.read_unread _
    isplitl [H1]; · iexists _; iframe H1; ipureintro; exact harg2.read_unread _
    isplitl [H2]; · iexists _; iframe H2; ipureintro; exact harg3.read_unread _
    iexists _; iexact HS0

def out3_A_2 : Vec F S64x128 .f32 := VO3_2.read (Elt F) (VO3_2.writes (Elt F) VO3_2.junk (kernelRun3_A c i arg1 harg1 arg2 harg2 arg3 harg3 arg4 harg4 hc0 hc1 x0 x1).1)

theorem scover3_A_0 (y : S64x128.Idx) : ∃ pc ∈ (kernelRun3_A c i arg1 harg1 arg2 harg2 arg3 harg3 arg4 harg4 hc0 hc1 x0 x1).2.1, y ∈ pc.1.set :=
  View.cover_of_tiledL (kernelRun3_A c i arg1 harg1 arg2 harg2 arg3 harg3 arg4 harg4 hc0 hc1 x0 x1).2.1 S64x128.size (by sl_kernel_rfl) y

def sout3_A_0 : Vec F S64x128 .f32 := VS3_0.read (Elt F) (VS3_0.writes (Elt F) VS3_0.junk (kernelRun3_A c i arg1 harg1 arg2 harg2 arg3 harg3 arg4 harg4 hc0 hc1 x0 x1).2.1)

end A

section B

variable (hc0 : ¬cond3_0 i) (hc1 : ¬cond3_1 i) (x0 : Vec F S5000x64 .bf16) (x1 : Vec F S5000x128 .f32) (xs0 : Vec F S64x128 .f32)

set_option maxHeartbeats 1000000 in
noncomputable def kernelRun3_B :
    Σ' (L2 : List (View.Piece (Elt F) S64x128 .f32)), { LS0 : List (View.Piece (Elt F) S64x128 .f32) //
      ∀ (xi2 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc3__pool_kernel i arg1 harg1 arg2 harg2 arg3 harg3 arg4 harg4) K } := by
  refine ⟨[], ?_, fun xi2 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]; · iexists _; iframe H0; ipureintro; exact harg1.read_unread _
    isplitl [H1]; · iexists _; iframe H1; ipureintro; exact harg2.read_unread _
    isplitl [H2]; · iexists _; iframe H2; ipureintro; exact harg3.read_unread _
    iexists _; iexact HS0

def out3_B_2 : Vec F S64x128 .f32 := VO3_2.read (Elt F) (VO3_2.writes (Elt F) VO3_2.junk (kernelRun3_B c i arg1 harg1 arg2 harg2 arg3 harg3 arg4 harg4 hc0 hc1 x0 x1 xs0).1)

theorem scover3_B_0 (y : S64x128.Idx) : ∃ pc ∈ (kernelRun3_B c i arg1 harg1 arg2 harg2 arg3 harg3 arg4 harg4 hc0 hc1 x0 x1 xs0).2.1, y ∈ pc.1.set :=
  View.cover_of_tiledL (kernelRun3_B c i arg1 harg1 arg2 harg2 arg3 harg3 arg4 harg4 hc0 hc1 x0 x1 xs0).2.1 S64x128.size (by sl_kernel_rfl) y

def sout3_B_0 : Vec F S64x128 .f32 := VS3_0.read (Elt F) (VS3_0.writes (Elt F) VS3_0.junk (kernelRun3_B c i arg1 harg1 arg2 harg2 arg3 harg3 arg4 harg4 hc0 hc1 x0 x1 xs0).2.1)

end B

section C

variable (hc0 : ¬cond3_0 i) (hc1 : cond3_1 i) (x0 : Vec F S5000x64 .bf16) (x1 : Vec F S5000x128 .f32) (xs0 : Vec F S64x128 .f32)

set_option maxHeartbeats 1000000 in
noncomputable def kernelRun3_C :
    Σ' (L2 : List (View.Piece (Elt F) S64x128 .f32)), { LS0 : List (View.Piece (Elt F) S64x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc3__pool_kernel i arg1 harg1 arg2 harg2 arg3 harg3 arg4 harg4) K } := by
  refine ⟨?_, ?_, fun E K => ?run⟩
  case run =>
    simp only [cc3__pool_kernel_eq_skeleton]; unfold cc3__pool_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]; · iexists _; iframe H0; ipureintro; exact harg1.read_unread _
    isplitl [H1]; · iexists _; iframe H1; ipureintro; exact harg2.read_unread _
    isplitl [H2]; · iexists _; iexact H2
    iexists _; iexact HS0

theorem cover3_C_2 (y : S64x128.Idx) : ∃ pc ∈ (kernelRun3_C c i arg1 harg1 arg2 harg2 arg3 harg3 arg4 harg4 hc0 hc1 x0 x1 xs0).1, y ∈ pc.1.set :=
  View.cover_of_tiledL (kernelRun3_C c i arg1 harg1 arg2 harg2 arg3 harg3 arg4 harg4 hc0 hc1 x0 x1 xs0).1 S64x128.size (by sl_kernel_rfl) y

def out3_C_2 : Vec F S64x128 .f32 := VO3_2.read (Elt F) (VO3_2.writes (Elt F) VO3_2.junk (kernelRun3_C c i arg1 harg1 arg2 harg2 arg3 harg3 arg4 harg4 hc0 hc1 x0 x1 xs0).1)

theorem scover3_C_0 (y : S64x128.Idx) : ∃ pc ∈ (kernelRun3_C c i arg1 harg1 arg2 harg2 arg3 harg3 arg4 harg4 hc0 hc1 x0 x1 xs0).2.1, y ∈ pc.1.set :=
  View.cover_of_tiledL (kernelRun3_C c i arg1 harg1 arg2 harg2 arg3 harg3 arg4 harg4 hc0 hc1 x0 x1 xs0).2.1 S64x128.size (by sl_kernel_rfl) y

def sout3_C_0 : Vec F S64x128 .f32 := VS3_0.read (Elt F) (VS3_0.writes (Elt F) VS3_0.junk (kernelRun3_C c i arg1 harg1 arg2 harg2 arg3 harg3 arg4 harg4 hc0 hc1 x0 x1 xs0).2.1)

end C

end Run

def step3 (c : Dev nD) (t : Fin cfg3.N) (xs : Vec F S64x128 .f32) : Vec F S64x128 .f32 × Vec F S64x128 .f32 :=
  if h0 : t.val % 10 = 0 then
    (out3_A_2 c (grid3.coords t) (ms3_0 t) (hs3_0 t) (ms3_1 t) (hs3_1 t) (ms3_2 t) (hs3_2 t) scM3_0 (Memref.isWhole_whole _) ((hcond3_0 t).mpr h0) (fun h => by have := (hcond3_1 t).mp h; omega) (iblk3 V c 0 t) (iblk3 V c 1 t),
      sout3_A_0 c (grid3.coords t) (ms3_0 t) (hs3_0 t) (ms3_1 t) (hs3_1 t) (ms3_2 t) (hs3_2 t) scM3_0 (Memref.isWhole_whole _) ((hcond3_0 t).mpr h0) (fun h => by have := (hcond3_1 t).mp h; omega) (iblk3 V c 0 t) (iblk3 V c 1 t))
  else if h1 : t.val % 10 = 9 then
    (out3_C_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) xs,
      sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) xs)
  else
    (out3_B_2 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) xs,
      sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) xs)

def outsAt3 (c : Dev nD) : (n : ℕ) → n < cfg3.N → Vec F S64x128 .f32 × Vec F S64x128 .f32
  | 0, hn => step3 V c ⟨0, hn⟩ (VO3_2.read (Elt F) VO3_2.junk)
  | n + 1, hn => step3 V c ⟨n + 1, hn⟩ (outsAt3 c n (Nat.lt_of_succ_lt hn)).2

theorem outsAt3_A (c : Dev nD) (t : Fin cfg3.N) (h0 : t.val % 10 = 0) (h1 : ¬t.val % 10 = 9) :
    outsAt3 V c t.val t.isLt = (out3_A_2 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t), sout3_A_0 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)) := by
  obtain ⟨n, hn⟩ := t
  cases n with
  | zero => rfl
  | succ n => exact dif_pos h0

theorem outsAt3_B (c : Dev nD) (t : Fin cfg3.N) (h0 : ¬t.val % 10 = 0) (h1 : ¬t.val % 10 = 9) :
    outsAt3 V c t.val t.isLt = (out3_B_2 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem outsAt3_C (c : Dev nD) (t : Fin cfg3.N) (h0 : ¬t.val % 10 = 0) (h1 : t.val % 10 = 9) :
    outsAt3 V c t.val t.isLt = (out3_C_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_pos h1)

def PhiS3 (c : Dev nD) : (n : ℕ) → n ≤ cfg3.N → sProp 𝕄
  | 0, _ => Pipeline.ΦA spec3 c
  | n + 1, hn => PhiX3 c (owns (c : Thread nD τ) scM3_0 fullShare (outsAt3 V c n hn).2)

theorem PhiS3_zero (c : Dev nD) (n : ℕ) (h : n ≤ cfg3.N) (hz : n = 0) : PhiS3 V c n h = Pipeline.ΦA spec3 c := by
  subst hz; rfl

theorem PhiS3_pos (c : Dev nD) (n : ℕ) (h : n ≤ cfg3.N) (hz : n ≠ 0) :
    PhiS3 V c n h = PhiX3 c (owns (c : Thread nD τ) scM3_0 fullShare (outsAt3 V c (n - 1) (by omega)).2) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = (outsAt3 V c t.val t.isLt).1 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl

set_option maxHeartbeats 4800000 in
theorem body_obligation3 (c : Dev nD) : BodyObligation (dat3 (F := F) V c) (defs₀ (F := F)) Variants.none () Set.univ := fun t => by
  rw [bigSep_W3, bigSep_W3]
  show _ ⊢ wp frame _ _ (bodyAt3 t) fun _ => iprop(_ ∗ _ ∗ (dat3 V c).leavesExact 0 t ∗ (dat3 V c).leavesExact 1 t ∗ (dat3 V c).leavesExact 2 t)
  unfold bodyAt3
  simp only [before3_0, before3_1]
  rw [show (dat3 V c).owesAt () t.succ = (dat3 V c).owesAt () t.castSucc from rfl,
    show (dat3 V c).Φ t.succ = PhiX3 c (owns (c : Thread nD τ) scM3_0 fullShare (outsAt3 V c t.val t.isLt).2) from rfl,
    show (dat3 V c).Φ t.castSucc = PhiS3 V c t.val (Nat.le_of_lt t.isLt) from rfl,
    show (dat3 V c).leavesExact 0 t = owns (c : Thread nD τ) (ms3_0 t) fullShare (iblk3 V c 0 t) from by
      unfold Dat.leavesExact; rw [liveAt3_0 t]; rfl,
    show (dat3 V c).leavesExact 1 t = owns (c : Thread nD τ) (ms3_1 t) fullShare (iblk3 V c 1 t) from by
      unfold Dat.leavesExact; rw [liveAt3_1 t]; rfl]
  have hN : t.val < 10 := lt_of_lt_of_eq t.isLt (show cfg3.N = 10 from N_3)
  by_cases h1 : t.val % 10 = 9
  · have h0 : ¬t.val % 10 = 0 := by omega
    have hz : t.val ≠ 0 := by omega
    rw [show (dat3 V c).leavesExact 2 t = owns (c : Thread nD τ) (ms3_2 t) fullShare ((dat3 V c).after 2 t) from by
      unfold Dat.leavesExact; rw [liveAt3_2 t h1], after3_2, outsAt3_C V c t h0 h1, PhiS3_pos V c _ _ hz]
    unfold out3_C_2 sout3_C_0 PhiX3; dsimp only
    iintro ⟨⟨⟨HS0, HR⟩, Hg⟩, Ho, ⟨%d0, H0⟩, ⟨%d1, H1⟩, ⟨%d2, H2⟩⟩
    iapply ((kernelRun3_C c (grid3.coords t) _ _ _ _ _ _ _ _ (fun h => h0 ((hcond3_0 t).mp h)) ((hcond3_1 t).mpr h1) (iblk3 V c 0 t) (iblk3 V c 1 t) _).2.2 Set.univ _)
    iframe H0 H1 HS0
    isplitl [H2]; · iexists _; iexact H2
    iintro ⟨H0, H1, ⟨%e2, H2⟩, ⟨%es0, HS0⟩⟩
    iframe HR Hg Ho H0 H1
    isplitl [HS0]
    · ihave H' := (Ring.owns_of_writes_tiledL VS3_0 S64x128.size) $$ HS0; iapply H'; ipureintro; sl_kernel_rfl
    ihave H' := (Ring.owns_of_writes_tiledL VO3_2 S64x128.size) $$ H2; iapply H'; ipureintro; sl_kernel_rfl
  · have hi := Dat.leavesExact_idle (dat3 V c) 2 t (idleAt3_2 t h1).1 (idleAt3_2 t h1).2
    have hn1 : ¬cond3_1 (grid3.coords t) := fun h => h1 ((hcond3_1 t).mp h)
    by_cases h0 : t.val % 10 = 0
    · have hz : t.val = 0 := by omega
      rw [hi, outsAt3_A V c t h0 h1, PhiS3_zero V c _ _ hz, PhiA3_eq]
      unfold sout3_A_0 PhiX3; dsimp only
      iintro ⟨⟨⟨HS0, HR⟩, Hg⟩, Ho, ⟨%d0, H0⟩, ⟨%d1, H1⟩, ⟨%d2, H2⟩⟩
      iapply ((kernelRun3_A c (grid3.coords t) _ _ _ _ _ _ _ _ ((hcond3_0 t).mpr h0) hn1 (iblk3 V c 0 t) (iblk3 V c 1 t)).2.2 _ Set.univ _)
      iframe H0 H1 H2 HS0
      iintro ⟨H0, H1, H2, ⟨%es0, HS0⟩⟩
      iframe HR Hg Ho H0 H1
      isplitl [HS0]
      · ihave H' := (Ring.owns_of_writes_tiledL VS3_0 S64x128.size) $$ HS0; iapply H'; ipureintro; sl_kernel_rfl
      iexists _; iexact H2
    · have hz : t.val ≠ 0 := by omega
      rw [hi, outsAt3_B V c t h0 h1, PhiS3_pos V c _ _ hz]
      unfold sout3_B_0 PhiX3; dsimp only
      iintro ⟨⟨⟨HS0, HR⟩, Hg⟩, Ho, ⟨%d0, H0⟩, ⟨%d1, H1⟩, ⟨%d2, H2⟩⟩
      iapply ((kernelRun3_B c (grid3.coords t) _ _ _ _ _ _ _ _ (fun h => h0 ((hcond3_0 t).mp h)) hn1 (iblk3 V c 0 t) (iblk3 V c 1 t) _).2.2 _ Set.univ _)
      iframe H0 H1 H2 HS0
      iintro ⟨H0, H1, H2, ⟨%es0, HS0⟩⟩
      iframe HR Hg Ho H0 H1
      isplitl [HS0]
      · ihave H' := (Ring.owns_of_writes_tiledL VS3_0 S64x128.size) $$ HS0; iapply H'; ipureintro; sl_kernel_rfl
      iexists _; iexact H2

theorem hin3 (c : Dev nD) : Pipeline.ΦA spec3 c ⊢ (dat3 V c).Φ 0 := .rfl

theorem hout3 (c : Dev nD) : (dat3 V c).Φ (Fin.last cfg3.N) ⊢ Pipeline.ΦA spec3 c := by
  rw [show (dat3 V c).Φ (Fin.last cfg3.N) = PhiS3 V c cfg3.N (Nat.le_refl _) from rfl, PhiS3_pos V c cfg3.N _ (by have : cfg3.N = 10 := N_3; omega), PhiA3_eq]
  unfold PhiX3
  iintro ⟨⟨HS0, HR⟩, Hg⟩
  iframe HR Hg
  iexists _; iexact HS0

end Cert.KernelIdeal.Hand

end
-- ==== Proof.KI.R4.lean ====
import proofs.«418815_j86294482911410_2_alg».proof.Proof.Gen.KernelIdeal.Launch
import proofs.«418815_j86294482911410_2_alg».proof.Proof.Gen.KernelIdeal.Skeleton
import proofs.«418815_j86294482911410_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S64x128 := Rect.unit (s := S64x128) ![0, 0] S64x128.size inb_S64x128_S64x128_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0
abbrev r4_3 : Rect S128x1 := Rect.unit (s := S128x1) ![0, 0] S128x1.size inb_S128x1_S128x1_0_0
abbrev r4_4 : Rect S1x1 := Rect.unit (s := S1x1) ![0, 0] S1x1.size inb_S1x1_S1x1_0_0
abbrev r4_5 : Rect S64x1 := Rect.unit (s := S64x1) ![0, 0] S64x1.size inb_S64x1_S64x1_0_0

def out4_5 (x0 : Vec F S64x128 .f32) (x1 : Vec F S128x128 .f32) (x2 : Vec F S1x128 .f32) (x3 : Vec F S128x1 .f32) (x4 : Vec F S1x1 .f32) : Vec F S64x1 .f32 :=
  View.canon [⟨r4_5, k4_pay1 (View.ld x0 r4_0) (View.ld x1 r4_1) (View.ld x3 r4_3) (View.ld x2 r4_2) (View.ld x4 r4_4)⟩]

theorem cover4_5 (p0 : Vec F S64x1 .f32) (y : S64x1.Idx) :
    ∃ pc ∈ ([⟨r4_5, p0⟩] : List (View.Piece (Elt F) S64x1 .f32)), y ∈ pc.1.set :=
  View.cover_of_tiled [⟨r4_5, p0⟩] S64x1.size (by rfl) y

set_option maxHeartbeats 1000000 in

theorem sound_kernel4 (c : Dev nD) (E : Set ℕ) (i : grid4.Coords) (arg1 : Memref sig .tc .vmem S64x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S64x1 .f32) (harg6 : arg6.IsWhole)
    (x0 : Vec F S64x128 .f32) (x1 : Vec F S128x128 .f32) (x2 : Vec F S1x128 .f32) (x3 : Vec F S128x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__head_kernel i arg1 harg1 arg2 harg2 arg3 harg3 arg4 harg4 arg5 harg5 arg6 harg6) K := by
  simp only [cc4__head_kernel_eq_skeleton]; unfold cc4__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4 (c : Dev nD) (t : Fin cfg4.N) : ∀ (w : Fin 6) (hw : w ≠ 5) (d), (dat4 V c).before w t d = (dat4 V c).after w t
  | 0, _, d | 1, _, d | 2, _, d | 3, _, d | 4, _, d =>
    ((dat4 V c).before_in_eq_fetched _ rfl (fun _ => rfl) (fun _ _ _ => rfl) (fun _ => rfl) t d).trans rfl
  | 5, hw, _ => absurd rfl hw

theorem body_obligation4 (c : Dev nD) : BodyObligation (dat4 (F := F) V c) (defs₀ (F := F)) Variants.none () Set.univ := fun t => by
  rw [bigSep_W4, bigSep_W4]
  show _ ⊢ wp frame _ _ (bodyAt4 t) _
  unfold bodyAt4
  simp only [before4 V c t 0 (by decide), before4 V c t 1 (by decide), before4 V c t 2 (by decide), before4 V c t 3 (by decide),
    before4 V c t 4 (by decide)]
  rewrite [show (dat4 V c).Φ t.succ = (dat4 V c).Φ t.castSucc from rfl,
    show (dat4 V c).owesAt () t.succ = (dat4 V c).owesAt () t.castSucc from rfl,
    show (dat4 V c).after 5 t = out4_5 ((dat4 V c).after 0 t) ((dat4 V c).after 1 t) ((dat4 V c).after 2 t) ((dat4 V c).after 3 t)
      ((dat4 V c).after 4 t) from by dsimp only [dat4]]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ ((dat4 V c).after 0 t) ((dat4 V c).after 1 t) ((dat4 V c).after 2 t)
    ((dat4 V c).after 3 t) ((dat4 V c).after 4 t) _)
  iframe H0 H1 H2 H3 H4
  isplitl [H5]; · iexists _; iexact H5
  iintro ⟨H0, H1, H2, H3, H4, H5⟩
  iframe

theorem hin4 (c : Dev nD) : Pipeline.ΦA spec4 c ⊢ (dat4 V c).Φ 0 := .rfl

theorem hout4 (c : Dev nD) : (dat4 V c).Φ (Fin.last cfg4.N) ⊢ Pipeline.ΦA spec4 c := .rfl

end Cert.KernelIdeal.Hand

end
-- ==== Proof.KI.Run.lean ====
import proofs.«418815_j86294482911410_2_alg».proof.Proof.Gen.KernelIdeal.Regions
import proofs.«418815_j86294482911410_2_alg».proof.Proof.KI.R0
import proofs.«418815_j86294482911410_2_alg».proof.Proof.KI.R1
import proofs.«418815_j86294482911410_2_alg».proof.Proof.KI.R2
import proofs.«418815_j86294482911410_2_alg».proof.Proof.KI.R3
import proofs.«418815_j86294482911410_2_alg».proof.Proof.KI.R4
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def setAt (o : Outs (F := F)) (r₀ : Ref sig .tc) (a : (c : Dev nD) → Buf (Elt F) ((c : Thread nD τ).loc r₀)) : Outs (F := F) :=
  fun J r c => if h : r = r₀ then h ▸ a c else o J r c

theorem setAt_self (o : Outs (F := F)) (r₀ : Ref sig .tc) (a : (c : Dev nD) → Buf (Elt F) ((c : Thread nD τ).loc r₀)) (J : ℕ) (c : Dev nD) :
    setAt o r₀ a J r₀ c = a c := by
  unfold setAt; rw [dif_pos rfl]

theorem setAt_ne (o : Outs (F := F)) (r₀ : Ref sig .tc) (a : (c : Dev nD) → Buf (Elt F) ((c : Thread nD τ).loc r₀)) (J : ℕ) {r : Ref sig .tc}
    (hr : r ≠ r₀) (c : Dev nD) : setAt o r₀ a J r c = o J r c := by
  unfold setAt; rw [dif_neg hr]

def outsInit : Outs (F := F) := fun _ r c => m ((c : Thread nD τ).loc r)

def res0 (c : Dev nD) : Buf (Elt F) ((c : Thread nD τ).loc main_v5) := (dat0 (fun c b => V1 m c b) c).arrAt 3 cfg0.N
def outsTo0 : Outs (F := F) := setAt (outsInit m) main_v5 (res0 m)

def res1 (c : Dev nD) : Buf (Elt F) ((c : Thread nD τ).loc main_v31) := (dat1 (fun c b => V5 m (outsTo0 m) c b) c).arrAt 11 cfg1.N
def outsTo1 : Outs (F := F) := setAt (outsTo0 m) main_v31 (res1 m)

def res2 (c : Dev nD) : Buf (Elt F) ((c : Thread nD τ).loc main_v57) := (dat2 (fun c b => V9 m (outsTo1 m) c b) c).arrAt 11 cfg2.N
def outsTo2 : Outs (F := F) := setAt (outsTo1 m) main_v57 (res2 m)

def res3 (c : Dev nD) : Buf (Elt F) ((c : Thread nD τ).loc main_v67) := (dat3 (fun c b => V11 m (outsTo2 m) c b) c).arrAt 2 cfg3.N
def outsTo3 : Outs (F := F) := setAt (outsTo2 m) main_v67 (res3 m)

def res4 (c : Dev nD) : Buf (Elt F) ((c : Thread nD τ).loc main_v75) := (dat4 (fun c b => V13 m (outsTo3 m) c b) c).arrAt 5 cfg4.N

def outs : Outs (F := F) := setAt (outsTo3 m) main_v75 (res4 m)

/-- The valuation a region is entered from reads the final assignment only at earlier regions' results. -/
theorem V5_outs (c : Dev nD) : V5 m (outs m) c = V5 m (outsTo0 m) c := by
  unfold V5 V4 V3 V2 outs outsTo3 outsTo2 outsTo1; simp (config := {decide := true}) only [setAt_ne, setAt_self]
theorem V9_outs (c : Dev nD) : V9 m (outs m) c = V9 m (outsTo1 m) c := by
  unfold V9 V8 V7 V6 V5 V4 V3 V2 outs outsTo3 outsTo2; simp (config := {decide := true}) only [setAt_ne, setAt_self]
theorem V11_outs (c : Dev nD) : V11 m (outs m) c = V11 m (outsTo2 m) c := by
  unfold V11 V10 V9 V8 V7 V6 V5 V4 V3 V2 outs outsTo3; simp (config := {decide := true}) only [setAt_ne, setAt_self]
theorem V13_outs (c : Dev nD) : V13 m (outs m) c = V13 m (outsTo3 m) c := by
  unfold V13 V12 V11 V10 V9 V8 V7 V6 V5 V4 V3 V2 outs; simp (config := {decide := true}) only [setAt_ne, setAt_self]

theorem outs_2 (c : Dev nD) : outs m 2 main_v5 c = (dat0 (fun c b => V1 m c b) c).arrAt 3 cfg0.N := by
  unfold outs outsTo3 outsTo2 outsTo1 outsTo0; simp (config := {decide := true}) only [setAt_ne, setAt_self]; rfl
theorem outs_6 (c : Dev nD) : outs m 6 main_v31 c = (dat1 (fun c b => V5 m (outs m) c b) c).arrAt 11 cfg1.N := by
  rw [funext fun c => V5_outs m c]; unfold outs outsTo3 outsTo2 outsTo1; simp (config := {decide := true}) only [setAt_ne, setAt_self]; rfl
theorem outs_10 (c : Dev nD) : outs m 10 main_v57 c = (dat2 (fun c b => V9 m (outs m) c b) c).arrAt 11 cfg2.N := by
  rw [funext fun c => V9_outs m c]; unfold outs outsTo3 outsTo2; simp (config := {decide := true}) only [setAt_ne, setAt_self]; rfl
theorem outs_12 (c : Dev nD) : outs m 12 main_v67 c = (dat3 (fun c b => V11 m (outs m) c b) c).arrAt 2 cfg3.N := by
  rw [funext fun c => V11_outs m c]; unfold outs outsTo3; simp (config := {decide := true}) only [setAt_ne, setAt_self]; rfl
theorem outs_14 (c : Dev nD) : outs m 14 main_v75 c = (dat4 (fun c b => V13 m (outs m) c b) c).arrAt 5 cfg4.N := by
  rw [funext fun c => V13_outs m c]; unfold outs; simp (config := {decide := true}) only [setAt_ne, setAt_self]; rfl

def pdats : (p : Fin 5) → (c : Dev nD) → Dat τ (Elt F) Unit ℕ (UR sig nD τ) ℕ (cfgs p) c
  | ⟨0, _⟩ => fun c => dat0 (fun c b => V1 m c b) c
  | ⟨1, _⟩ => fun c => dat1 (fun c b => V5 m (outs m) c b) c
  | ⟨2, _⟩ => fun c => dat2 (fun c b => V9 m (outs m) c b) c
  | ⟨3, _⟩ => fun c => dat3 (fun c b => V11 m (outs m) c b) c
  | ⟨4, _⟩ => fun c => dat4 (fun c b => V13 m (outs m) c b) c

local notation "𝒱ₙ" => Variants.none
local notation "𝓛" => (fun _ => ∅ : GSem nD τ sig → Finset Unit)
local notation "𝓵" => (fun _ _ => 0 : GSem nD τ sig → Unit → ℕ)

abbrev restState (c : Dev nD) : sProp 𝕄 :=
  iprop((∃ r, prngReg c r) ∗ ∃ W, owes (c : Thread nD τ) (0 : CellTallies nD τ sig Unit) W)

theorem launch_own : (ownU (initOf (Pipeline.cells cfgs cellOf_inj) (Pipeline.launchToks cfgs cellOf_inj)) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem rest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts 𝓛 𝓵)
      ⊢ (|={Set.univ}=> bigSep Finset.univ (fun c : Dev nD => restState (F := F) c) : sProp 𝕄) := by
  refine Pipeline.initEach 𝓛 𝓵 fun c => ?_
  iintro ⟨⟨-, HO, -, Hp, -⟩, -⟩
  imodintro
  isplitl [Hp]; · iexists _; iexact Hp
  iexists ∅; iexact HO

theorem rest_end (c : Dev nD) : restState (F := F) c ⊢ (iprop(∃ W, owes (c : Thread nD τ) (0 : CellTallies nD τ sig Unit) W) : sProp 𝕄) := by
  iintro ⟨-, HO⟩; iexact HO

set_option backward.isDefEq.respectTransparency.types false in
/-- Every launch is framed alike: its arrays at the entry valuation before, at the exit valuation after, all else kept. -/
def regOf (p : Fin 5) (lf : Pipeline.LaunchFacts (nD := nD) (τ := τ) cfgs p) (Vi Vo : Dev nD → Valuation τ sig (Elt F))
    (hbody : ∀ c, BodyObligation (pdats m p c) (defs₀ (F := F)) 𝒱ₙ () Set.univ)
    (hA : ∀ c w, (pdats m p c).A w = Vi c (Pipeline.arrRef (pcfgs (F := F) p).spec w))
    (hq : ∀ c w, (pdats m p c).q w = fullShare) (howed : ∀ c t, (pdats m p c).owed t = 0)
    (hrec : ∀ c, (pdats m p c).recorded 0 = Set.univ)
    (hin : ∀ c, Pipeline.ΦA (cfgs p).spec c ⊢ (pdats m p c).Φ 0)
    (hout : ∀ c, (pdats m p c).Φ (Fin.last (cfgs p).N) ⊢ Pipeline.ΦA (cfgs p).spec c)
    (wo : Fin (cfgs p).W) (hio : ∀ w, w ≠ wo → ((cfgs p).win w).isOut = false)
    (hVo : ∀ c, Vo c = Function.update (Vi c) (Pipeline.arrRef (cfgs p).spec wo) ((pdats m p c).arrAt wo (cfgs p).N)) :
    Pipeline.RegionSeg (pcfgs (F := F)) adm (pdats m) () defs₀ 𝒱ₙ 𝓛 𝓵 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ 𝓛 𝓵 p howed
  pre c := iprop(StableHlo.held (c : Thread nD τ) (Pipeline.ucRefs τ sig) (Vi c) ∗ restState c)
  post c := iprop(StableHlo.held (c : Thread nD τ) (Pipeline.ucRefs τ sig) (Vo c) ∗ restState c)
  X c := iprop(∃ r, prngReg c r)
  Y c := iprop(∃ r, prngReg c r)
  Z c := Pipeline.unscopedRest (Ix := Unit) (Name := ℕ) (U := UR sig nD τ) (Lvl := ℕ) (cfgs p).spec c (fun b => Vi c b)
  hentry c := by
    rw [Pipeline.ownSems0_none]
    have hsplit := Pipeline.arrays_of_unscopedBufs (p := p) (pcfgs (F := F)) adm (pdats m) lf.win lf.arr_whole c
      ((pdats m p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (by rw [hrec c]; trivial)
      iexact HO
    isplitl [Hp]; · iexact Hp
    iexact Hrest
  hin c := by
    refine .trans ?_ (hin c); unfold Pipeline.ΦA
    iintro ⟨Hp, -, Hr⟩
    isplitl [Hr]; · iexact Hr
    iexact Hp
  hout c := by
    rw [Pipeline.ownSems0_none]; refine (hout c).trans ?_; unfold Pipeline.ΦA
    iintro ⟨Hr, Hp⟩
    isplitl [Hp]; · iexact Hp
    isplitr; · iempintro
    iexact Hr
  hexit c := by
    have hF : ∀ w, (pdats m p c).arrAt w (cfgs p).N = Vo c (Pipeline.arrRef (cfgs p).spec w) := fun w => by
      rw [hVo]
      by_cases hw : w = wo
      · subst hw; rw [Function.update_self]
      · exact ((Dat.arrAt_in _ w (hio w hw) _).trans (hA c w)).trans
          (Function.update_of_ne (fun h => hw (lf.win.arr_inj (Proc.devRef_injective _ h))) _ _).symm
    have hrest : ∀ b : Ref sig .tc, b ∉ Finset.univ.image (Pipeline.arrRef (cfgs p).spec) → Vo c b = Vi c b := fun b hb => by
      rw [hVo]; exact Function.update_of_ne (fun h => hb (Finset.mem_image.mpr ⟨wo, Finset.mem_univ _, (Proc.devRef_injective _ h).symm⟩)) _ _
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Vi c b) (fun b => Vo c b) ((pdats m p c).arrAt · (cfgs p).N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 : Pipeline.RegionSeg (pcfgs (F := F)) adm (pdats m) () defs₀ 𝒱ₙ 𝓛 𝓵 0 :=
  regOf m 0 launch0 (fun c => V1 m c) (fun c => V2 m (outs m) c) (body_obligation0 (fun c b => V1 m c b))
    (fun _ _ => rfl) (fun _ _ => rfl) (fun _ _ => rfl) (fun _ => rfl) (hin0 (fun c b => V1 m c b)) (hout0 (fun c b => V1 m c b)) 3 (by decide) (fun c => congrArg (Function.update _ _) (outs_2 m c))

def reg1 : Pipeline.RegionSeg (pcfgs (F := F)) adm (pdats m) () defs₀ 𝒱ₙ 𝓛 𝓵 1 :=
  regOf m 1 launch1 (fun c => V5 m (outs m) c) (fun c => V6 m (outs m) c) (body_obligation1 (fun c b => V5 m (outs m) c b))
    (fun _ _ => rfl) (fun _ _ => rfl) (fun _ _ => rfl) (fun _ => rfl) (hin1 (fun c b => V5 m (outs m) c b)) (hout1 (fun c b => V5 m (outs m) c b)) 11 (by decide) (fun c => congrArg (Function.update _ _) (outs_6 m c))

def reg2 : Pipeline.RegionSeg (pcfgs (F := F)) adm (pdats m) () defs₀ 𝒱ₙ 𝓛 𝓵 2 :=
  regOf m 2 launch2 (fun c => V9 m (outs m) c) (fun c => V10 m (outs m) c) (body_obligation2 (fun c b => V9 m (outs m) c b))
    (fun _ _ => rfl) (fun _ _ => rfl) (fun _ _ => rfl) (fun _ => rfl) (hin2 (fun c b => V9 m (outs m) c b)) (hout2 (fun c b => V9 m (outs m) c b)) 11 (by decide) (fun c => congrArg (Function.update _ _) (outs_10 m c))

def reg3 : Pipeline.RegionSeg (pcfgs (F := F)) adm (pdats m) () defs₀ 𝒱ₙ 𝓛 𝓵 3 :=
  regOf m 3 launch3 (fun c => V11 m (outs m) c) (fun c => V12 m (outs m) c) (body_obligation3 (fun c b => V11 m (outs m) c b))
    (fun _ _ => rfl) (fun _ _ => rfl) (fun _ _ => rfl) (fun _ => rfl) (hin3 (fun c b => V11 m (outs m) c b)) (hout3 (fun c b => V11 m (outs m) c b)) 2 (by decide) (fun c => congrArg (Function.update _ _) (outs_12 m c))

def reg4 : Pipeline.RegionSeg (pcfgs (F := F)) adm (pdats m) () defs₀ 𝒱ₙ 𝓛 𝓵 4 :=
  regOf m 4 launch4 (fun c => V13 m (outs m) c) (fun c => V14 m (outs m) c) (body_obligation4 (fun c b => V13 m (outs m) c b))
    (fun _ _ => rfl) (fun _ _ => rfl) (fun _ _ => rfl) (fun _ => rfl) (hin4 (fun c b => V13 m (outs m) c b)) (hout4 (fun c b => V13 m (outs m) c b)) 5 (by decide) (fun c => congrArg (Function.update _ _) (outs_14 m c))

def frame (ρ : Dev nD → PrngReg) :=
  frame_cond m (emb₁ : Emb (UR sig nD τ) 𝕄) () 𝒱ₙ 𝓛 𝓵 (fun _ _ => rfl) ρ (outs m) (pdats m) 0 (fun _ => iprop(emp))
    (initOf (Pipeline.cells cfgs cellOf_inj) (Pipeline.launchToks cfgs cellOf_inj)) launch_own
    (fun _ c => restState c) (rest_init ρ) rest_end
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl)

end Cert.KernelIdeal.Hand

end
-- ==== Proof.KI.RunCond.lean ====
import proofs.«418815_j86294482911410_2_alg».proof.Proof.KI.Run

set_option maxRecDepth 1180

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V11 m outs c) ∗ E 3 c) ⊢ R3.pre c)
    (hpost3 : ∀ c : Dev nD, R3.post c ⊢ iprop(StableHlo.held (c : Thread nD τ) (Pipeline.ucRefs τ sig) (V12 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V13 m outs c) ∗ E 4 c) ⊢ R4.pre c)
    (hpost4 : ∀ c : Dev nD, R4.post c ⊢ iprop(StableHlo.held (c : Thread nD τ) (Pipeline.ucRefs τ sig) (V14 m outs c) ∗ E 5 c)) :
    θ_run defs (onTc (τ := τ) (main (F := F))) ⟨m, fun _ => 0, ρ⟩ (fun r => ∀ c : Dev nD,
      ∀ b ∈ Pipeline.ucRefs τ sig, r.2.mem (((c : Thread nD τ)).1, b) = V15 m outs c b) := by
  refine Pipeline.θ_run_regions_kit_dev (pcfgs (F := F)) adm pdats ι cellOf_inj EP defs₀ 𝒱₀ L lv m ρ main
    (segs m outs 𝒱₀ L lv E ι pdats R0 R1 R2 R3 R4)
    (fun c Q => by
      rewrite [main_chain c, Seg.run_eq_chain,
        show (segs m outs 𝒱₀ L lv E ι pdats R0 R1 R2 R3 R4 c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V15 m outs c))
    (hch := fun c => ⟨.rfl, hpre0 c, hpost0 c, .rfl, .rfl, hpre1 c, hpost1 c, .rfl, .rfl, hpre2 c, hpost2 c, hpre3 c, hpost3 c, hpre4 c, hpost4 c, sep_mono .rfl (hE5 c)⟩)
    (hinit := ?_) (QY := fun c s => ∀ b ∈ Pipeline.ucRefs τ sig, s.mem (((c : Thread nD τ)).1, b) = V15 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V15 m outs c) s') $$ [Hh HSI]
    · isplitl [Hh] <;> iassumption
    icases Hr with ⟨%h, HSI⟩
    imodintro
    isplitr
    · ipureintro
      exact h
    · iexact HSI

theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V15 m (outs m) c b) :=
  run_cond m (emb₁ : Emb (UR sig nD τ) (MT nD τ sig Unit (Elt F) ℕ (UR sig nD τ) ℕ)) () Variants.none (fun _ => ∅) (fun _ _ => 0) (fun _ _ => rfl) ρ (outs m) (pdats m) 0 (fun _ => iprop(emp))
    (initOf (Pipeline.cells cfgs cellOf_inj) (Pipeline.launchToks cfgs cellOf_inj)) launch_own
    (fun _ c => restState c) (rest_init ρ) rest_end
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Mat (n0 n1 : Nat) : Type := (⟨2, ![n0, n1]⟩ : Shape).Idx → EReal

abbrev Vc (n : Nat) : Type := (⟨1, ![n]⟩ : Shape).Idx → EReal

abbrev c1 : EReal := Ideal.ofBits .f32 0x3F800000#32
abbrev c0 : EReal := Ideal.ofBits .f32 0x00000000#32
abbrev cSlope : EReal := Ideal.ofBits .f32 0x3C23D70A#32
abbrev cEps : EReal := Ideal.ofBits .f32 0x3727C5AC#32

def enc {N : Nat} (a : Mat N 1) (w : Mat 1 128) (b : Mat 1 128) : Mat N 128 :=
  fun i => a (ix2 (i 0 : Fin N) (0 : Fin 1)) * w (ix2 (0 : Fin 1) (i 1 : Fin 128)) + b (ix2 (0 : Fin 1) (i 1 : Fin 128))

def leaky (x : EReal) : EReal :=
  Scalar.select (FloatOps.cmpf (F := Ideal) (φ := .f32) .oge x c0) x (cSlope * x)

def dense {R K C : Nat} (h : Mat R K) (w : Mat K C) (b : Mat 1 C) : Mat R C :=
  fun i => (∑ k : Fin K, h (ix2 (i 0 : Fin R) k) * w (ix2 k (i 1 : Fin C))) + b (ix2 (0 : Fin 1) (i 1 : Fin C))

def bnRelu {R : Nat} (h : Mat R 128) (g beta mean var : Mat 1 128) : Mat R 128 :=
  fun i => max ((h i - mean (ix2 (0 : Fin 1) (i 1 : Fin 128))) * Ideal.rsqrt (var (ix2 (0 : Fin 1) (i 1 : Fin 128)) + cEps)
      * g (ix2 (0 : Fin 1) (i 1 : Fin 128)) + beta (ix2 (0 : Fin 1) (i 1 : Fin 128))) c0

def convRows {R : Nat} (eps : EReal) (x agg : Mat R 128) (w1 : Mat 128 128) (b1 : Mat 1 128) (w2 : Mat 128 128) (b2 : Mat 1 128)
    (g beta mean var : Mat 1 128) : Mat R 128 :=
  bnRelu (dense (fun j => leaky (dense (fun i => (c1 + eps) * x i + agg i) w1 b1 j)) w2 b2) g beta mean var

def msg {E : Nat} (xs ea : Mat E 128) : Mat E 128 := fun i => max (xs i + ea i) c0

def poolSum {N G : Nat} (bt : Fin N → BitVec 32) (x : Mat N 128) : Mat G 128 :=
  fun i => ∑ n : Fin N, if bt n = BitVec.ofNat 32 (i 0 : Fin G).val then x (ix2 n (i 1 : Fin 128)) else 0

def poolCnt {N G : Nat} (bt : Fin N → BitVec 32) : Vc G :=
  fun i => ∑ n : Fin N, if bt n = BitVec.ofNat 32 (i 0 : Fin G).val then c1 else 0

def pooled {G : Nat} (s : Mat G 128) (cnt : Vc G) : Mat G 128 :=
  fun i => Ideal.div (s i) (max (cnt (ix1 (i 0 : Fin G))) c1)

def head {G : Nat} (p : Mat G 128) (w1 : Mat 128 128) (b1 : Mat 1 128) (w2 : Mat 128 1) (b2 : Mat 1 1) : Mat G 1 :=
  fun i => Ideal.logistic (dense (fun j => leaky (dense p w1 b1 j)) w2 b2 i)

def ohT {N G : Nat} (oh : Mat N G) (x : Mat N 128) : Mat G 128 :=
  fun i => ∑ n : Fin N, oh (ix2 n (i 0 : Fin G)) * x (ix2 n (i 1 : Fin 128))

def row {C : Nat} (b : Vc C) : Mat 1 C := fun j => b (ix1 (j 1 : Fin C))

def model (gath : Mat 50000 128 → Mat 800000 128) (scat : Mat 800000 128 → Mat 50000 128) (bt : Fin 50000 → BitVec 32)
    (nw : Mat 50000 1) (ew : Mat 800000 1) (new neb eew eeb : Mat 1 128)
    (eps1 : EReal) (w11 : Mat 128 128) (b11 : Mat 1 128) (w12 : Mat 128 128) (b12 g1 be1 mu1 var1 : Mat 1 128)
    (eps2 : EReal) (w21 : Mat 128 128) (b21 : Mat 1 128) (w22 : Mat 128 128) (b22 g2 be2 mu2 var2 : Mat 1 128)
    (hw1 : Mat 128 128) (hb1 : Mat 1 128) (hw2 : Mat 128 1) (hb2 : Mat 1 1) : Mat 64 1 :=
  let ea := enc ew eew eeb
  let x0 := enc nw new neb
  let x1 := convRows eps1 x0 (scat (msg (gath x0) ea)) w11 b11 w12 b12 g1 be1 mu1 var1
  let x2 := convRows eps2 x1 (scat (msg (gath x1) ea)) w21 b21 w22 b22 g2 be2 mu2 var2
  head (pooled (poolSum bt x2) (poolCnt bt)) hw1 hb1 hw2 hb2

end Cert.Spec

end
-- ==== Proof.Bridge.Pool.lean ====
import Idealize.ShloMosaic.PureOps.Ideal.Laws
import Idealize.ShloMosaic.Lib.ValueIdxRank1
import proofs.«418815_j86294482911410_2_alg».proof.Proof.Spec

noncomputable section

namespace Cert.Bridge

open Idealize.ShloMosaic Idealize.ShloMosaic.ValueIdx Cert.Spec

theorem toInt_eq_iff (w : BitVec 32) (g : Nat) (hg : g < 64) : w.toInt = (g : Int) ↔ w = BitVec.ofNat 32 g := by
  have e : (BitVec.ofNat 32 g).toInt = (g : Int) := by
    rw [BitVec.toInt_eq_toNat_cond, BitVec.toNat_ofNat, Nat.mod_eq_of_lt (by omega)]
    split <;> omega
  exact ⟨fun h => BitVec.eq_of_toInt_eq (h.trans e.symm), fun h => h ▸ e⟩

-- An update lands at `i` exactly when its start plus its window offset is `i` on every axis.
theorem resultIdx?_eq_some {s si u : Shape} (d : ScatterDims s si u) {w : Nat} (j : u.Idx) (idx : IVec si w) (i : s.Idx) :
    d.resultIdx? j idx = some i ↔ ∀ a, d.start j idx a + ((d.window j a : Nat) : Int) = ((i a).val : Int) := by
  unfold ScatterDims.resultIdx?
  split
  · rename_i H
    rw [Option.some.injEq, funext_iff]
    exact forall_congr' fun a => by rw [Fin.ext_iff]; have := H a; show Int.toNat _ = _ ↔ _; omega
  · rename_i H
    exact iff_of_false nofun fun h => H fun a => by rw [h a]; exact ⟨Int.natCast_nonneg _, Int.ofNat_lt.2 (i a).isLt⟩

theorem scatterAdd_apply {s si u : Shape} (d : ScatterDims s si u) {w : Nat} (z : s.Idx → EReal) (idx : IVec si w)
    (upd : u.Idx → EReal) (i : s.Idx) (hz : z i = 0) :
    Ideal.hostScatterAdd d z idx upd i
      = ∑ j, if ∀ a, d.start j idx a + ((d.window j a : Nat) : Int) = ((i a).val : Int) then upd j else 0 := by
  unfold Ideal.hostScatterAdd
  rw [hz, zero_add, Finset.sum_filter]
  exact Finset.sum_congr rfl fun j _ => if_congr (resultIdx?_eq_some d j idx i) rfl rfl

section Scatter
variable (idx : IVec ⟨2, ![50000, 1]⟩ 32) (bt : Fin 50000 → BitVec 32) (hidx : ∀ n : Fin 50000, idx (ix2 n (0 : Fin 1)) = bt n)
  (n : Fin 50000)

section Rows
variable (wf : ScatterDims.WF ⟨2, ![64, 128]⟩ ⟨2, ![50000, 1]⟩ ⟨2, ![50000, 128]⟩ [1] [0] [0] 1) (h : Fin 128)

abbrev dR : ScatterDims ⟨2, ![64, 128]⟩ ⟨2, ![50000, 1]⟩ ⟨2, ![50000, 128]⟩ := ⟨[1], [0], [0], 1, wf⟩

include hidx in
theorem sw_rows0 : (dR wf).start (ix2 n h) idx 0 + (((dR wf).window (ix2 n h) 0 : Nat) : Int) = (bt n).toInt := by
  unfold ScatterDims.start ScatterDims.window
  rw [dif_pos (show (0 : Fin 2) ∈ [(0 : Fin 2)] by decide),
    dif_neg (show ¬ (0 : Fin 2) ∈ Shape.kept ⟨2, ![64, 128]⟩ [(0 : Fin 2)] by decide), Nat.cast_zero, add_zero, ← hidx]
  exact congrArg (fun k => (idx k).toInt) (funext (Fin.forall_fin_two.2 ⟨rfl, rfl⟩))

theorem sw_rows1 : (dR wf).start (ix2 n h) idx 1 + (((dR wf).window (ix2 n h) 1 : Nat) : Int) = (h.val : Int) := by
  unfold ScatterDims.start ScatterDims.window
  rw [dif_neg (show ¬ (1 : Fin 2) ∈ [(0 : Fin 2)] by decide),
    dif_pos (show (1 : Fin 2) ∈ Shape.kept ⟨2, ![64, 128]⟩ [(0 : Fin 2)] by decide), zero_add]
  rfl

include hidx in
theorem lands_rows (g : Fin 64) (h' : Fin 128) :
    (∀ a, (dR wf).start (ix2 n h) idx a + (((dR wf).window (ix2 n h) a : Nat) : Int) = ((ix2 g h' a).val : Int))
      ↔ h = h' ∧ bt n = BitVec.ofNat 32 g.val :=
  Fin.forall_fin_two.trans (and_comm.trans (and_congr
    (by rw [sw_rows1]; exact Nat.cast_inj.trans Fin.val_inj)
    (by rw [sw_rows0 idx bt hidx]; exact toInt_eq_iff _ _ g.isLt)))

include hidx in
-- A sum scattered by row into 64 rows is the sum over the rows carrying that row's number.
theorem scatterAdd_rows_eq_poolSum (z : Mat 64 128) (hz : ∀ i, z i = 0) (x : Mat 50000 128) :
    Ideal.hostScatterAdd (dR wf) z idx x = poolSum bt x := by
  have key (g : Fin 64) (h' : Fin 128) : Ideal.hostScatterAdd (dR wf) z idx x (ix2 g h') = poolSum bt x (ix2 g h') := by
    rw [scatterAdd_apply _ _ _ _ _ (hz _), sum_idx2]
    refine Finset.sum_congr rfl fun n _ => ?_
    simp only [lands_rows idx bt hidx n wf _ g h', ite_and, Finset.sum_ite_eq', Finset.mem_univ, if_true]
  funext i
  rw [eq_ix2 i]
  exact key (i 0) (i 1)
end Rows

section Cnt
variable (wf : ScatterDims.WF ⟨1, ![64]⟩ ⟨2, ![50000, 1]⟩ ⟨1, ![50000]⟩ [] [0] [0] 1)

abbrev dC : ScatterDims ⟨1, ![64]⟩ ⟨2, ![50000, 1]⟩ ⟨1, ![50000]⟩ := ⟨[], [0], [0], 1, wf⟩

include hidx in
theorem lands_cnt (g : Fin 64) :
    (∀ a, (dC wf).start (ix1 n) idx a + (((dC wf).window (ix1 n) a : Nat) : Int) = ((ix1 g a).val : Int))
      ↔ bt n = BitVec.ofNat 32 g.val := by
  refine Fin.forall_fin_one.trans ?_
  unfold ScatterDims.start ScatterDims.window
  rw [dif_pos (show (0 : Fin 1) ∈ [(0 : Fin 1)] by decide),
    dif_neg (show ¬ (0 : Fin 1) ∈ Shape.kept ⟨1, ![64]⟩ [(0 : Fin 1)] by decide), Nat.cast_zero, add_zero,
    ← toInt_eq_iff _ _ g.isLt, ← hidx]
  exact Eq.congr_left (congrArg (fun k => (idx k).toInt) (funext (Fin.forall_fin_two.2 ⟨rfl, rfl⟩)))

include hidx in
-- Ones scattered by row into 64 counters count the rows carrying each number.
theorem scatterAdd_ones_eq_poolCnt (z : Vc 64) (hz : ∀ i, z i = 0) (u : Vc 50000) (hu : ∀ j, u j = c1) :
    Ideal.hostScatterAdd (dC wf) z idx u = poolCnt bt := by
  have key (g : Fin 64) : Ideal.hostScatterAdd (dC wf) z idx u (ix1 g) = poolCnt bt (ix1 g) := by
    rw [scatterAdd_apply _ _ _ _ _ (hz _), ← Equiv.sum_comp idxEquiv1.symm]
    exact Finset.sum_congr rfl fun n _ => if_congr (lands_cnt idx bt hidx n wf g) (hu _) rfl
  funext i
  rw [eq_ix1 i]
  exact key (i 0)
end Cnt
end Scatter

theorem ohT_onehot_eq_poolSum (bt : Fin 50000 → BitVec 32) (oh : Mat 50000 64)
    (hoh : ∀ (n : Fin 50000) (g : Fin 64), oh (ix2 n g) = if bt n = BitVec.ofNat 32 g.val then (1 : EReal) else 0)
    (x : Mat 50000 128) :
    ohT oh x = poolSum bt x := by
  funext i
  refine Finset.sum_congr rfl fun n _ => ?_
  rw [hoh n (i 0), ite_mul, one_mul, zero_mul]

theorem reduce_onehot_eq_poolCnt (bt : Fin 50000 → BitVec 32) (oh : Mat 50000 64)
    (hoh : ∀ (n : Fin 50000) (g : Fin 64), oh (ix2 n g) = if bt n = BitVec.ofNat 32 g.val then c1 else 0)
    (h : Shape.ReducesTo ⟨2, ![50000, 64]⟩ [0] ⟨1, ![64]⟩) (init : EReal) (hinit : init = 0) :
    Ideal.hostReduceAdd h oh init = poolCnt bt := by
  have h2 : Shape.Reduces ⟨2, ![50000, 64]⟩ [0] ⟨1, ![64]⟩ := by decide
  funext i
  rw [Ideal.hostReduceAdd_single h h2, hinit, zero_add]
  refine Finset.sum_congr rfl fun n _ => (congrArg oh ?_).trans (hoh n (i 0))
  exact funext (Fin.forall_fin_two.2 ⟨rfl, rfl⟩)

end Cert.Bridge

end
-- ==== Proof.KI.KVal.lean ====
import proofs.«418815_j86294482911410_2_alg».proof.Proof.Gen.KernelIdeal.Regions
import proofs.«418815_j86294482911410_2_alg».proof.Proof.Spec
import proofs.«418815_j86294482911410_2_alg».proof.Proof.Bridge.Pool
import Idealize.ShloMosaic.Lib.ValueLayout
import Idealize.ShloMosaic.Lib.IdealHost
import Idealize.ShloMosaic.Lib.KernelVsHost

set_option maxRecDepth 16384

noncomputable section

namespace Cert.KernelIdeal.HandVal

open Cert.KernelIdeal Cert.KernelIdeal.Gen
open Idealize.ShloMosaic Idealize.ShloMosaic.TcCoe Idealize.ShloMosaic.ValueIdx
open Idealize.SL.Sem
open Cert.Bridge (ohT_onehot_eq_poolSum reduce_onehot_eq_poolCnt)
open Cert.Spec

abbrev srcRow (src : IVec S2x800000 32) : IVec S800000 32 :=
  fun i => shapeCast S800000 (extractStridedSlice S1x800000 ![0, 0] src slices_S2x800000_S1x800000_0_0) shapeCasts_S1x800000_S800000 i

abbrev dstRow (src : IVec S2x800000 32) : IVec S800000 32 :=
  fun i => shapeCast S800000 (extractStridedSlice S1x800000 ![1, 0] src slices_S2x800000_S1x800000_1_0) shapeCasts_S1x800000_S800000 i

def gath (src : IVec S2x800000 32) : Cert.Spec.Mat 50000 128 → Cert.Spec.Mat 800000 128 := fun x =>
  Host.gather gather_S50000x128_S800000x1_S800000x128_1_0_n_n_0_1_1128 x
    (broadcastInDim S800000x1 ![0] bcast_S800000_S800000x1_0
      (select (cmpi .slt (srcRow src) (broadcastInDim S800000 ![] bcast_S_S800000 (constantI S_ 32 0#32)))
        (addi (srcRow src) (broadcastInDim S800000 ![] bcast_S_S800000 (constantI S_ 32 50000#32)))
        (srcRow src)))

def scat (src : IVec S2x800000 32) : Cert.Spec.Mat 800000 128 → Cert.Spec.Mat 50000 128 := fun u =>
  Host.scatterAdd (F := Ideal) (φ := .f32) scatter_S50000x128_S800000x1_S800000x128_1_0_0_1
    (broadcastInDim S50000x128 ![] bcast_S_S50000x128 (constant (F := Ideal) S_ .f32 0x00000000#32))
    (broadcastInDim S800000x1 ![0] bcast_S800000_S800000x1_0 (dstRow src)) u

section Reads

variable {α : Type}

-- on an axis of extent one the operand's coordinate is zero whatever the result's is
theorem bcast_apply {s t : Shape} {dims : Fin s.rank → Fin t.rank} (h : s.BroadcastsInDim t dims) (x : s.Idx → α) (j : t.Idx) (k : s.Idx)
    (hk : ∀ a, s.size a ≠ 1 → (k a).val = (j (dims a)).val) : broadcastInDim t dims h x j = x k :=
  broadcastInDim_apply dims h x j k fun a => by
    split
    · have := (k a).isLt; omega
    · exact hk a ‹_›

theorem bcast_col_apply {n c : ℕ} (x : (⟨2, ![n, 1]⟩ : Shape).Idx → α)
    (h : (⟨2, ![n, 1]⟩ : Shape).BroadcastsInDim ⟨2, ![n, c]⟩ ![0, 1]) (e : Fin n) (k : Fin c) :
    broadcastInDim ⟨2, ![n, c]⟩ ![0, 1] h x (ix2 e k) = x (ix2 e (0 : Fin 1)) :=
  bcast_apply h x _ _ fun a ha => match a with | ⟨0, _⟩ => rfl | ⟨1, _⟩ => (ha rfl).elim

theorem bcast_vec_row_apply {c : ℕ} (x : (⟨1, ![c]⟩ : Shape).Idx → α)
    (h : (⟨1, ![c]⟩ : Shape).BroadcastsInDim ⟨2, ![1, c]⟩ ![1]) (u : Fin 1) (k : Fin c) :
    broadcastInDim ⟨2, ![1, c]⟩ ![1] h x (ix2 u k) = x (ix1 k) :=
  bcast_apply h x _ _ fun a _ => match a with | ⟨0, _⟩ => rfl

theorem bcast_vec_col_apply {n : ℕ} (x : (⟨1, ![n]⟩ : Shape).Idx → α)
    (h : (⟨1, ![n]⟩ : Shape).BroadcastsInDim ⟨2, ![n, 1]⟩ ![0]) (e : Fin n) (u : Fin 1) :
    broadcastInDim ⟨2, ![n, 1]⟩ ![0] h x (ix2 e u) = x (ix1 e) :=
  bcast_apply h x _ _ fun a _ => match a with | ⟨0, _⟩ => rfl

theorem reshape_row {a : ℕ} (b : (⟨1, ![a]⟩ : Shape).Idx → EReal) (h : (⟨1, ![a]⟩ : Shape).ShapeCasts ⟨2, ![1, a]⟩) :
    (fun i => shapeCast ⟨2, ![1, a]⟩ b h i) = Cert.Spec.row b := by
  funext i
  obtain ⟨u, k, rfl⟩ : ∃ u k, i = ix2 u k := ⟨i 0, i 1, eq_ix2 i⟩
  exact shapeCast_a_1a_apply b h u k

theorem reshape_scalar (e : S_.Idx → EReal) (h : S_.ShapeCasts S1x1) (j : S1x1.Idx) : shapeCast S1x1 e h j = e ix0 := by
  unfold shapeCast
  exact congrArg e (funext fun a => a.elim0)

theorem reshape_col {n : ℕ} (y : (⟨2, ![n, 1]⟩ : Shape).Idx → EReal) (h : (⟨2, ![n, 1]⟩ : Shape).ShapeCasts ⟨1, ![n]⟩) :
    (fun i => shapeCast ⟨1, ![n]⟩ y h i) = fun i => y (ix2 (i 0) (0 : Fin 1)) := by
  funext i
  refine shapeCast_apply y h i (ix2 (i 0) (0 : Fin 1)) ?_
  rw [Shape.rowMajor_val_two, Shape.rowMajor_val_one]
  show (i 0).val * 1 + 0 = (i 0).val
  omega

end Reads

section Arithmetic

def msgH (g : S800000x128.Idx → EReal) (ew : S800000x1.Idx → EReal) (w : S1x128.Idx → EReal) (b : S128.Idx → EReal) : FVec Ideal S800000x128 .f32 :=
  maximumf
    (addf (addf g (mulf (broadcastInDim S800000x128 ![0, 1] bcast_S800000x1_S800000x128_0_1 ew)
        (broadcastInDim S800000x128 ![0, 1] bcast_S1x128_S800000x128_0_1 w)))
      (broadcastInDim S800000x128 ![0, 1] bcast_S1x128_S800000x128_0_1 (broadcastInDim S1x128 ![1] bcast_S128_S1x128_1 b)))
    (broadcastInDim S800000x128 ![] bcast_S_S800000x128 (constant (F := Ideal) S_ .f32 0x00000000#32))

theorem msgH_eq (g : S800000x128.Idx → EReal) (ew : S800000x1.Idx → EReal) (w : S1x128.Idx → EReal) (b : S128.Idx → EReal) :
    msgH g ew w b = Cert.Spec.msg g (Cert.Spec.enc ew w (Cert.Spec.row b)) := by
  funext i
  obtain ⟨e, k, rfl⟩ : ∃ e k, i = ix2 e k := ⟨i 0, i 1, eq_ix2 i⟩
  show (max (_ + _ * _ + _) _ : EReal) = max (_ + (_ * _ + _)) _
  rw [bcast_col_apply, broadcastInDim_oneRow_apply, broadcastInDim_oneRow_apply, bcast_vec_row_apply, broadcastInDim_scalar_apply, add_assoc]
  rfl

abbrev member (bt : IVec S50000 32) : FVec Ideal S50000x64 .f32 :=
  uitofp .f32 (cmpi .eq
    (broadcastInDim S50000x64 ![0, 1] bcast_S50000x1_S50000x64_0_1 (broadcastInDim S50000x1 ![0] bcast_S50000_S50000x1_0 bt))
    (broadcastInDim S50000x64 ![0, 1] bcast_S1x64_S50000x64_0_1 (broadcastInDim S1x64 ![1] bcast_S64_S1x64_1 (iotaInDim S64 32 0))))

theorem member_apply (bt : IVec S50000 32) (n : Fin 50000) (g : Fin 64) :
    member bt (ix2 n g) = if bt (ix1 n) = BitVec.ofNat 32 g.val then (1 : EReal) else 0 := by
  show FloatOps.uitofp (F := Ideal) .f32 (IntOp.cmpi .eq (broadcastInDim _ _ _ _ (ix2 n g)) (broadcastInDim _ _ _ _ (ix2 n g))) = _
  rw [bcast_col_apply, bcast_vec_col_apply, broadcastInDim_oneRow_apply, bcast_vec_row_apply, iotaInDim_apply]
  show (((IntOp.cmpi .eq (bt (ix1 n)) (BitVec.ofNat 32 g.val)).toNat : ℝ) : EReal) = _
  by_cases h : bt (ix1 n) = BitVec.ofNat 32 g.val
  · rw [if_pos h, h]
    simp [IntOp.cmpi]
  · rw [if_neg h]
    simp [IntOp.cmpi, h]

theorem member_prod (bt : IVec S50000 32) (x : S50000x128.Idx → EReal) :
    ohT (truncf .bf16 (member bt) bitsLt_bf16_f32 : FVec Ideal S50000x64 .bf16) x = poolSum (fun n => bt (ix1 n)) x :=
  ohT_onehot_eq_poolSum (fun n => bt (ix1 n)) _ (fun n g => member_apply bt n g) x

def agg (s d : IVec S800000 32) (x : S50000x128.Idx → EReal) (ew : S800000x1.Idx → EReal) (w : S1x128.Idx → EReal) (b : S128.Idx → EReal) :
    FVec Ideal S50000x128 .f32 :=
  Host.scatterAdd (F := Ideal) (φ := .f32) scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (msgH (Host.gather gather_S50000x128_S800000x1_S800000x128_1_0_n_n_0_1_1128 x
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s))) ew w b)

theorem agg_eq (src : IVec S2x800000 32) (x : S50000x128.Idx → EReal) (ew : S800000x1.Idx → EReal) (w : S1x128.Idx → EReal) (b : S128.Idx → EReal) :
    agg (srcRow src) (dstRow src) x ew w b = scat src (msg (gath src x) (enc ew w (row b))) :=
  congrArg (scat src) (msgH_eq (gath src x) ew w b)

end Arithmetic

section Stretches

variable (W : Valuation τ sig (Elt Ideal))

theorem s_v1 : (StableHlo.after hostOps0 W (no_index (Proc.devRef .tc main_v1)) : IVec S800000 32) = srcRow (W main_arg2) := by
  after_results; rfl

theorem s_v3 : (StableHlo.after hostOps0 W (no_index (Proc.devRef .tc main_v3)) : IVec S800000 32) = dstRow (W main_arg2) := by
  after_results; rfl

theorem s_v4 : StableHlo.after hostOps0 W main_v4 = row (W main_arg5) := by
  after_results <;> exact reshape_row _ _

theorem s_v23 : @Eq (FVec Ideal S50000x128 .f32)
    (StableHlo.after hostOps1_2 (StableHlo.after hostOps1_1 (StableHlo.after hostOps1 W)) main_v23)
    (agg (W main_v1) (W main_v3) (W main_v5) (W main_arg1) (W main_arg6) (W main_arg7)) := by
  after_results_simp <;> rfl

theorem s_v24 : (StableHlo.after hostOps1_2 W main_v24 : S1x1.Idx → EReal) (ix2 0 0) = (W main_arg8 : S_.Idx → EReal) ix0 := by
  after_results <;> exact reshape_scalar _ _ _

theorem s_v25 : StableHlo.after hostOps1_2 W main_v25 = row (W main_arg10) := by
  after_results <;> exact reshape_row _ _

theorem s_v26 : StableHlo.after hostOps1_2 W main_v26 = row (W main_arg12) := by
  after_results <;> exact reshape_row _ _

theorem s_v27 : StableHlo.after hostOps1_2 W main_v27 = row (W main_arg13) := by
  after_results <;> exact reshape_row _ _

theorem s_v28 : StableHlo.after hostOps1_2 W main_v28 = row (W main_arg14) := by
  after_results <;> exact reshape_row _ _

theorem s_v29 : StableHlo.after hostOps1_2 W main_v29 = row (W main_arg15) := by
  after_results <;> exact reshape_row _ _

theorem s_v30 : StableHlo.after hostOps1_2 W main_v30 = row (W main_arg16) := by
  after_results <;> exact reshape_row _ _

theorem s_v49 : @Eq (FVec Ideal S50000x128 .f32)
    (StableHlo.after hostOps2_2 (StableHlo.after hostOps2_1 (StableHlo.after hostOps2 W)) main_v49)
    (agg (W main_v1) (W main_v3) (W main_v31) (W main_arg1) (W main_arg6) (W main_arg7)) := by
  after_results_simp <;> rfl

theorem s_v50 : (StableHlo.after hostOps2_2 W main_v50 : S1x1.Idx → EReal) (ix2 0 0) = (W main_arg17 : S_.Idx → EReal) ix0 := by
  after_results <;> exact reshape_scalar _ _ _

theorem s_v51 : StableHlo.after hostOps2_2 W main_v51 = row (W main_arg19) := by
  after_results <;> exact reshape_row _ _

theorem s_v52 : StableHlo.after hostOps2_2 W main_v52 = row (W main_arg21) := by
  after_results <;> exact reshape_row _ _

theorem s_v53 : StableHlo.after hostOps2_2 W main_v53 = row (W main_arg22) := by
  after_results <;> exact reshape_row _ _

theorem s_v54 : StableHlo.after hostOps2_2 W main_v54 = row (W main_arg23) := by
  after_results <;> exact reshape_row _ _

theorem s_v55 : StableHlo.after hostOps2_2 W main_v55 = row (W main_arg24) := by
  after_results <;> exact reshape_row _ _

theorem s_v56 : StableHlo.after hostOps2_2 W main_v56 = row (W main_arg25) := by
  after_results <;> exact reshape_row _ _

theorem s_v65 : @Eq (FVec Ideal S64 .f32) (StableHlo.after hostOps3 W (no_index (Proc.devRef .tc main_v65))) (poolCnt fun n => (W main_arg3 : IVec S50000 32) (ix1 n)) := by
  after_results_simp
  funext j
  rw [hostReduceAdd_apply]
  refine congrFun (reduce_onehot_eq_poolCnt _ (member (W main_arg3)) (fun n g => ?_) reducesTo_S50000x64_S64_d0 _ ?_) j
  · rw [member_apply, show c1 = (1 : EReal) from Ideal.ofBits_one_f32]
  · exact Ideal.ofBits_zero_f32

theorem s_v66 : @Eq (FVec Ideal S50000x64 .bf16) (StableHlo.after hostOps3 W main_v66)
    (truncf .bf16 (member (W main_arg3)) bitsLt_bf16_f32) := by
  after_results_simp <;> rfl

theorem s_v72 : @Eq (FVec Ideal S64x128 .f32) (StableHlo.after hostOps4 W main_v72) (pooled (W main_v67) (W main_v65)) := by
  after_results
  funext i
  obtain ⟨g, k, rfl⟩ : ∃ g k, i = ix2 g k := ⟨i 0, i 1, eq_ix2 i⟩
  refine congrArg (Ideal.div _) ?_
  rw [bcast_col_apply, bcast_vec_col_apply]
  exact congrArg (max _) (broadcastInDim_scalar_apply _ _ _)

theorem s_v73 : StableHlo.after hostOps4 W main_v73 = row (W main_arg27) := by
  after_results <;> exact reshape_row _ _

theorem s_v74 : StableHlo.after hostOps4 W main_v74 = row (W main_arg29) := by
  after_results <;> exact reshape_row _ _

theorem s_v76 : (StableHlo.after hostOps5 W main_v76 : S64.Idx → EReal) = fun i => (W main_v75 : S64x1.Idx → EReal) (ix2 (i 0) (0 : Fin 1)) := by
  after_results <;> exact reshape_col _ _

end Stretches

-- evaluating operations that do not assign a name, or reassigning a different name, leaves that name's value unchanged
theorem after_keep {ops : List (HloOp τ sig (Elt Ideal))} {Wl : List (Ref sig .tc)} {W : Valuation τ sig (Elt Ideal)}
    (hw : ops.Forall fun op => op.writes ⊆ (Wl.map (Proc.devRef (τ := τ) .tc)).toFinset) (r : Ref sig .tc) (h : r ∉ Wl) :
    StableHlo.after ops W (no_index (Proc.devRef .tc r)) = W (Proc.devRef .tc r) :=
  StableHlo.after_of_writes_sub ops W hw h

theorem set_keep (W : Valuation τ sig (Elt Ideal)) (v r : Ref sig .tc) (x : _) (h : r ≠ v) :
    Function.update W (no_index (Proc.devRef .tc v)) x (no_index (Proc.devRef .tc r)) = W (Proc.devRef .tc r) :=
  Function.update_of_ne (StableHlo.devRef_ne_of_ne h) _ _

end Cert.KernelIdeal.HandVal

end
-- ==== Proof.KI.ValLib.lean ====
import proofs.«418815_j86294482911410_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandVal

open Idealize.ShloMosaic Idealize.ShloMosaic.ValueIdx

theorem zero2 : (![0, 0] : Fin 2 → Nat) = fun _ => 0 := funext (Fin.forall_fin_two.2 ⟨rfl, rfl⟩)

theorem off_zero {f g : Fin 2 → Nat} (h0 : f 0 = 0) (h1 : f 1 = 0) : (fun a => f a * g a) = fun _ => 0 :=
  funext (Fin.forall_fin_two.2 ⟨by rw [h0, Nat.zero_mul], by rw [h1, Nat.zero_mul]⟩)

theorem ix2_row {n0 n1 : Nat} (a : Fin n0) (b : Fin n1) : ix2 a b 0 = a := rfl
theorem ix2_col {n0 n1 : Nat} (a : Fin n0) (b : Fin n1) : ix2 a b 1 = b := rfl

theorem rsqrt_at {s : Shape} (v : FVec Ideal s .f32) (i : s.Idx) : rsqrt v i = Ideal.rsqrt (v i) := rfl

-- rows times columns: the sum over the shared axis
theorem mm_at {M K N : Nat} {φ₁ φ₂ : FTy} (d : DotDims ⟨2, ![M, K]⟩ ⟨2, ![K, N]⟩ ⟨2, ![M, N]⟩) (hd : d = DotDims.plain M K N)
    (a : FVec Ideal ⟨2, ![M, K]⟩ φ₁) (b : FVec Ideal ⟨2, ![K, N]⟩ φ₂) (p : Fin M) (q : Fin N) :
    FloatOps.matmul d none a b (constant ⟨2, ![M, N]⟩ .f32 0x00000000#32) (ix2 p q) = ∑ k : Fin K, a (ix2 p k) * b (ix2 k q) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  exact congrArg₂ (· * ·) (congrArg a (Shape.idx_ext₂ rfl hk)) (congrArg b (Shape.idx_ext₂ hk rfl))

theorem bcast_one_at {α : Type} {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) :=
  broadcastTo_apply v h (ix2 p q) (ix2 (0 : Fin 1) (0 : Fin 1)) (Fin.forall_fin_two.2 ⟨rfl, rfl⟩)

-- a column broadcast over the rows
theorem bcast_col_at {α : Type} {a b : ℕ} (v : (⟨2, ![a, 1]⟩ : Shape).Idx → α) (h : (⟨2, ![a, 1]⟩ : Shape).Broadcasts ⟨2, ![a, b]⟩)
    (j : (⟨2, ![a, b]⟩ : Shape).Idx) : broadcastTo ⟨2, ![a, b]⟩ v h j = v (ix2 (j 0 : Fin a) (0 : Fin 1)) :=
  broadcastTo_apply v h j _ (Fin.forall_fin_two.2 ⟨by
    show (j 0).val = if a = 1 then 0 else (j 0).val
    split
    · have h0 : (j 0).val < a := (j 0).isLt; omega
    · rfl, rfl⟩)

theorem row_bounds {R i x : Nat} (hR : 0 < R) (hx : x = i / R) : x * R ≤ i ∧ i < x * R + R :=
  hx ▸ ⟨Nat.div_mul_le_self i R, Nat.lt_div_mul_add hR⟩

theorem col_bounds {C j x : Nat} (hx : x = 0) (hj : j < C) : x * C ≤ j ∧ j < x * C + C := by
  subst hx; rw [Nat.zero_mul, Nat.zero_add]; exact ⟨Nat.zero_le _, hj⟩

-- the layer's output at a row depends on its two row inputs at that row alone
theorem convRows_row {R R' : Nat} (eps : EReal) (x agg : Cert.Spec.Mat R 128) (X AGG : Cert.Spec.Mat R' 128)
    (w1 : Cert.Spec.Mat 128 128) (b1 : Cert.Spec.Mat 1 128) (w2 : Cert.Spec.Mat 128 128) (b2 g beta mean var : Cert.Spec.Mat 1 128)
    (r : Fin R) (r' : Fin R') (q : Fin 128)
    (hx : ∀ k : Fin 128, x (ix2 r k) = X (ix2 r' k)) (hagg : ∀ k : Fin 128, agg (ix2 r k) = AGG (ix2 r' k)) :
    Cert.Spec.convRows eps x agg w1 b1 w2 b2 g beta mean var (ix2 r q)
      = Cert.Spec.convRows eps X AGG w1 b1 w2 b2 g beta mean var (ix2 r' q) := by
  unfold Cert.Spec.convRows Cert.Spec.bnRelu Cert.Spec.dense Cert.Spec.leaky
  simp only [ix2_row, ix2_col, hx, hagg]

end Cert.KernelIdeal.HandVal

end
-- ==== Proof.KI.Val0.lean ====
import proofs.«418815_j86294482911410_2_alg».proof.Proof.KI.R0
import proofs.«418815_j86294482911410_2_alg».proof.Proof.KI.ValLib

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

theorem affine_apply (x0 : Vec Ideal S5000x1 .f32) (x1 x2 : Vec Ideal S1x128 .f32) (p : Fin 5000) (q : Fin 128) :
    k0_pay1 x0 x1 x2 (ix2 p q) = Cert.Spec.enc x0 x1 x2 (ix2 p q) := by
  unfold k0_pay1 Cert.Spec.enc
  simp only [addf_apply, mulf_apply, shapeCast_self, bcast_col_at, broadcastTo_1b_ab_apply, ix2_row, ix2_col]

variable (V : (c : Dev nD) → (b : Ref sig .tc) → Buf (Elt Ideal) ((c : Thread nD τ).loc b))

abbrev encOf (c : Dev nD) : S50000x128.Idx → EReal :=
  Cert.Spec.enc (V c main_arg0 : S50000x1.Idx → EReal) (V c main_arg4 : S1x128.Idx → EReal) (V c main_v4 : S1x128.Idx → EReal)

theorem blk0_1 (c : Dev nD) (t : Fin cfg0.N) : iblk0 (F := Ideal) V c 1 t = (V c main_arg4 : S1x128.Idx → EReal) :=
  Memref.read_access_unit_zero (Elt Ideal) main_arg4 (off_zero rfl rfl) _ _
theorem blk0_2 (c : Dev nD) (t : Fin cfg0.N) : iblk0 (F := Ideal) V c 2 t = (V c main_v4 : S1x128.Idx → EReal) :=
  Memref.read_access_unit_zero (Elt Ideal) main_v4 (off_zero rfl rfl) _ _

-- the input's row block and the output's row block sit at the same rows
theorem flushed_eq (c : Dev nD) (t : Fin cfg0.N) :
    (dat0 V c).flushed 3 t = ((cfg0.win 3).blk t).view.read (Elt Ideal) (encOf V c) := by
  show (cfg0.win 3).cut (grid0.coords t) ((dat0 V c).after 3 t) = _
  rw [after0_3]
  unfold out0_3
  rw [View.canon_unit_zero zero2]
  simp only [View.ld_unit_zero (S := S5000x1) zero2, View.ld_unit_zero (S := S1x128) zero2]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = Cert.Spec.enc (V c main_arg0 : S50000x1.Idx → EReal) (V c main_arg4 : S1x128.Idx → EReal) (V c main_v4 : S1x128.Idx → EReal)
        (((cfg0.win 3).blk t).view.emb (ix2 p q))
  have h1 : (((cfg0.win 3).blk t).view.emb (ix2 p q) : S50000x128.Idx) 1 = q :=
    Fin.ext (win0_3.rect_emb_val_of_index_zero t (1 : Fin 2) rfl (ix2 p q))
  have h0 : iblk0 (F := Ideal) V c 0 t (ix2 p (0 : Fin 1))
      = (V c main_arg0 : S50000x1.Idx → EReal) (ix2 ((((cfg0.win 3).blk t).view.emb (ix2 p q) : S50000x128.Idx) 0 : Fin 50000) (0 : Fin 1)) :=
    congrArg (V c main_arg0) (Shape.idx_ext₂
      ((win0_0.rect_emb_val t (ix2 p (0 : Fin 1)) (0 : Fin 2)).trans (win0_3.rect_emb_val t (ix2 p q) (0 : Fin 2)).symm)
      (win0_0.rect_emb_val_of_index_zero t (1 : Fin 2) rfl (ix2 p (0 : Fin 1))))
  rw [affine_apply, blk0_1 V c t, blk0_2 V c t]
  unfold Cert.Spec.enc
  simp only [ix2_row, ix2_col]
  rw [h0, h1]

theorem idx0_3 : ∀ t : Fin cfg0.N, win0_3.index t (0 : Fin 2) = t.val := (by decide +kernel : ∀ t : Fin grid0.N, _)

theorem covered (i : S50000x128.Idx) :
    ∃ t : Fin cfg0.N, (cfg0.win 3).flush t = true ∧ i ∈ ((cfg0.win 3).blk t).view.set := by
  have hi0 : (i 0).val < 50000 := (i 0).isLt
  have hN : (i 0).val / 5000 < cfg0.N := by rw [show cfg0.N = 10 from N_0]; omega
  refine ⟨⟨(i 0).val / 5000, hN⟩, flush0_3 _, ?_⟩
  show i ∈ ((View.whole main_v5).slice (win0_3.rect ⟨(i 0).val / 5000, hN⟩)).set
  rw [View.set_slice_whole, Rect.mem_set_unit]
  exact Fin.forall_fin_two.2 ⟨row_bounds (by decide) (idx0_3 _), col_bounds rfl (i 1).isLt⟩

theorem final0 (c : Dev nD) : ((dat0 (F := Ideal) V c).arrAt 3 cfg0.N : S50000x128.Idx → EReal)
    = Cert.Spec.enc (V c main_arg0 : S50000x1.Idx → EReal) (V c main_arg4 : S1x128.Idx → EReal) (V c main_v4 : S1x128.Idx → EReal) :=
  (dat0 V c).arrAt_eq_of_cover 3 (encOf V c) (fun t _ => flushed_eq V c t) covered

end Cert.KernelIdeal.HandVal

end
-- ==== Proof.KI.Val1.lean ====
import proofs.«418815_j86294482911410_2_alg».proof.Proof.KI.R1
import proofs.«418815_j86294482911410_2_alg».proof.Proof.KI.ValLib

noncomputable section

namespace Cert.KernelIdeal.HandVal

open Cert.KernelIdeal Cert.KernelIdeal.Gen Cert.KernelIdeal.Hand
open Idealize.ShloMosaic Idealize.ShloMosaic.ValueIdx Idealize.ShloMosaic.TcCoe Idealize.SL.Sem
open Idealize.ShloMosaic.Pipeline (Dat)

theorem pay_apply1 (x0 x1 : Vec Ideal S2000x128 .f32) (x2 : Vec Ideal S1x1 .f32) (x3 : Vec Ideal S128x128 .f32) (x4 : Vec Ideal S1x128 .f32)
    (x5 : Vec Ideal S128x128 .f32) (x6 x7 x8 x9 x10 : Vec Ideal S1x128 .f32) (p : Fin 2000) (q : Fin 128) :
    k1_pay1 (F := Ideal) (k1_pay2 x2 x0 x1 x3 x5 x4 x6 x9) x10 x7 x8 (ix2 p q)
      = Cert.Spec.convRows (x2 (ix2 (0 : Fin 1) (0 : Fin 1))) x0 x1 x3 x4 x5 x6 x7 x8 x9 x10 (ix2 p q) := by
  unfold k1_pay1 k1_pay2 Cert.Spec.convRows Cert.Spec.bnRelu Cert.Spec.dense Cert.Spec.leaky
  simp only [shapeCast_self, maximumf_apply, addf_apply, mulf_apply, subf_apply, broadcast_apply, select_apply, cmpf_apply,
    truncf_apply, broadcastTo_1b_ab_apply, bcast_one_at, mm_at dot_S2000x128_S128x128_S2000x128_1_0_0_1_n_n rfl, rsqrt_at, ix2_row, ix2_col]
  rfl

variable (V : (c : Dev nD) → (b : Ref sig .tc) → Buf (Elt Ideal) ((c : Thread nD τ).loc b))

theorem idx_rows1 : ∀ t : Fin cfg1.N,
    win1_0.index t (0 : Fin 2) = t.val ∧ win1_1.index t (0 : Fin 2) = t.val ∧ win1_11.index t (0 : Fin 2) = t.val :=
  (by decide +kernel : ∀ t : Fin grid1.N, _)

def rowAt1 (t : Fin cfg1.N) (p : Fin 2000) : Fin 50000 :=
  ⟨t.val * 2000 + p.val, by have ht : t.val < 25 := lt_of_lt_of_eq t.isLt N_1; have hp := p.isLt; omega⟩

theorem blk1_0 (c : Dev nD) (t : Fin cfg1.N) (p : Fin 2000) (k : Fin 128) :
    iblk1 (F := Ideal) V c 0 t (ix2 p k) = (V c main_v5 : S50000x128.Idx → EReal) (ix2 (rowAt1 t p) k) :=
  congrArg (V c main_v5) (Shape.idx_ext₂ ((win1_0.rect_emb_val t (ix2 p k) (0 : Fin 2)).trans (congrArg (· * 2000 + p.val) (idx_rows1 t).1))
    (win1_0.rect_emb_val_of_index_zero t (1 : Fin 2) rfl (ix2 p k)))

theorem blk1_1 (c : Dev nD) (t : Fin cfg1.N) (p : Fin 2000) (k : Fin 128) :
    iblk1 (F := Ideal) V c 1 t (ix2 p k) = (V c main_v23 : S50000x128.Idx → EReal) (ix2 (rowAt1 t p) k) :=
  congrArg (V c main_v23) (Shape.idx_ext₂ ((win1_1.rect_emb_val t (ix2 p k) (0 : Fin 2)).trans (congrArg (· * 2000 + p.val) (idx_rows1 t).2.1))
    (win1_1.rect_emb_val_of_index_zero t (1 : Fin 2) rfl (ix2 p k)))

theorem emb_out1 (t : Fin cfg1.N) (p : Fin 2000) (q : Fin 128) :
    (((cfg1.win 11).blk t).view.emb (ix2 p q) : S50000x128.Idx) = ix2 (rowAt1 t p) q :=
  Shape.idx_ext₂ ((win1_11.rect_emb_val t (ix2 p q) (0 : Fin 2)).trans (congrArg (· * 2000 + p.val) (idx_rows1 t).2.2))
    (win1_11.rect_emb_val_of_index_zero t (1 : Fin 2) rfl (ix2 p q))

-- a window that sits at the origin and is as large as its array reads the array itself
theorem blk1_2 (c : Dev nD) (t : Fin cfg1.N) : iblk1 (F := Ideal) V c 2 t = (V c main_v24 : S1x1.Idx → EReal) :=
  Memref.read_access_unit_zero (Elt Ideal) main_v24 (off_zero rfl rfl) _ _
theorem blk1_3 (c : Dev nD) (t : Fin cfg1.N) : iblk1 (F := Ideal) V c 3 t = (V c main_arg9 : S128x128.Idx → EReal) :=
  Memref.read_access_unit_zero (Elt Ideal) main_arg9 (off_zero rfl rfl) _ _
theorem blk1_4 (c : Dev nD) (t : Fin cfg1.N) : iblk1 (F := Ideal) V c 4 t = (V c main_v25 : S1x128.Idx → EReal) :=
  Memref.read_access_unit_zero (Elt Ideal) main_v25 (off_zero rfl rfl) _ _
theorem blk1_5 (c : Dev nD) (t : Fin cfg1.N) : iblk1 (F := Ideal) V c 5 t = (V c main_arg11 : S128x128.Idx → EReal) :=
  Memref.read_access_unit_zero (Elt Ideal) main_arg11 (off_zero rfl rfl) _ _
theorem blk1_6 (c : Dev nD) (t : Fin cfg1.N) : iblk1 (F := Ideal) V c 6 t = (V c main_v26 : S1x128.Idx → EReal) :=
  Memref.read_access_unit_zero (Elt Ideal) main_v26 (off_zero rfl rfl) _ _
theorem blk1_7 (c : Dev nD) (t : Fin cfg1.N) : iblk1 (F := Ideal) V c 7 t = (V c main_v27 : S1x128.Idx → EReal) :=
  Memref.read_access_unit_zero (Elt Ideal) main_v27 (off_zero rfl rfl) _ _
theorem blk1_8 (c : Dev nD) (t : Fin cfg1.N) : iblk1 (F := Ideal) V c 8 t = (V c main_v28 : S1x128.Idx → EReal) :=
  Memref.read_access_unit_zero (Elt Ideal) main_v28 (off_zero rfl rfl) _ _
theorem blk1_9 (c : Dev nD) (t : Fin cfg1.N) : iblk1 (F := Ideal) V c 9 t = (V c main_v29 : S1x128.Idx → EReal) :=
  Memref.read_access_unit_zero (Elt Ideal) main_v29 (off_zero rfl rfl) _ _
theorem blk1_10 (c : Dev nD) (t : Fin cfg1.N) : iblk1 (F := Ideal) V c 10 t = (V c main_v30 : S1x128.Idx → EReal) :=
  Memref.read_access_unit_zero (Elt Ideal) main_v30 (off_zero rfl rfl) _ _

abbrev G1 (c : Dev nD) : S50000x128.Idx → EReal :=
  Cert.Spec.convRows ((V c main_v24 : S1x1.Idx → EReal) (ix2 0 0)) (V c main_v5) (V c main_v23) (V c main_arg9) (V c main_v25)
    (V c main_arg11) (V c main_v26) (V c main_v27) (V c main_v28) (V c main_v29) (V c main_v30)

theorem flushed_eq1 (c : Dev nD) (t : Fin cfg1.N) :
    (dat1 (F := Ideal) V c).flushed 11 t = ((cfg1.win 11).blk t).view.read (Elt Ideal) (G1 V c) := by
  show (cfg1.win 11).cut (grid1.coords t) ((dat1 V c).after 11 t) = _
  rw [after1_11]
  unfold out1_11
  rw [View.canon_unit_zero zero2]
  simp only [View.ld_unit_zero (S := S2000x128) zero2, View.ld_unit_zero (S := S1x1) zero2, View.ld_unit_zero (S := S128x128) zero2,
    View.ld_unit_zero (S := S1x128) zero2]
  funext j
  obtain ⟨p, q, rfl⟩ : ∃ (p : Fin 2000) (q : Fin 128), j = ix2 p q := ⟨j 0, j 1, eq_ix2 j⟩
  show k1_pay1 (F := Ideal) (k1_pay2 (iblk1 V c 2 t) (iblk1 V c 0 t) (iblk1 V c 1 t) (iblk1 V c 3 t) (iblk1 V c 5 t) (iblk1 V c 4 t)
      (iblk1 V c 6 t) (iblk1 V c 9 t)) (iblk1 V c 10 t) (iblk1 V c 7 t) (iblk1 V c 8 t) (ix2 p q)
    = G1 V c (((cfg1.win 11).blk t).view.emb (ix2 p q))
  rw [emb_out1 t p q, pay_apply1, blk1_2 V c t, blk1_3 V c t, blk1_4 V c t, blk1_5 V c t, blk1_6 V c t, blk1_7 V c t, blk1_8 V c t,
    blk1_9 V c t, blk1_10 V c t]
  exact convRows_row _ _ _ _ _ _ _ _ _ _ _ _ _ p (rowAt1 t p) q (blk1_0 V c t p) (blk1_1 V c t p)

theorem cover1 (i : S50000x128.Idx) :
    ∃ t : Fin cfg1.N, (cfg1.win 11).flush t = true ∧ i ∈ ((cfg1.win 11).blk t).view.set := by
  have hi0 : (i 0).val < 50000 := (i 0).isLt
  have hN : (i 0).val / 2000 < cfg1.N := by show (i 0).val / 2000 < grid1.N; rw [N_1]; omega
  refine ⟨⟨(i 0).val / 2000, hN⟩, flush1_11 _, ?_⟩
  show i ∈ ((View.whole main_v31).slice (win1_11.rect ⟨(i 0).val / 2000, hN⟩)).set
  rw [View.set_slice_whole, Rect.mem_set_unit]
  exact Fin.forall_fin_two.2 ⟨row_bounds (by decide) (idx_rows1 _).2.2, col_bounds rfl (i 1).isLt⟩

theorem final1 (c : Dev nD) : ((dat1 (F := Ideal) V c).arrAt 11 cfg1.N : S50000x128.Idx → EReal) =
    Cert.Spec.convRows ((V c main_v24 : S1x1.Idx → EReal) (ValueIdx.ix2 0 0)) (V c main_v5) (V c main_v23) (V c main_arg9) (V c main_v25)
      (V c main_arg11) (V c main_v26) (V c main_v27) (V c main_v28) (V c main_v29) (V c main_v30) :=
  (dat1 V c).arrAt_eq_of_cover 11 (G1 V c) (fun t _ => flushed_eq1 V c t) cover1

end Cert.KernelIdeal.HandVal

end
-- ==== Proof.KI.Val2.lean ====
import proofs.«418815_j86294482911410_2_alg».proof.Proof.KI.R2
import proofs.«418815_j86294482911410_2_alg».proof.Proof.KI.ValLib

noncomputable section

namespace Cert.KernelIdeal.HandVal

open Cert.KernelIdeal Cert.KernelIdeal.Gen Cert.KernelIdeal.Hand
open Idealize.ShloMosaic Idealize.ShloMosaic.ValueIdx Idealize.ShloMosaic.TcCoe Idealize.SL.Sem
open Idealize.ShloMosaic.Pipeline (Dat)

theorem pay_apply2 (x0 x1 : Vec Ideal S2000x128 .f32) (x2 : Vec Ideal S1x1 .f32) (x3 : Vec Ideal S128x128 .f32) (x4 : Vec Ideal S1x128 .f32)
    (x5 : Vec Ideal S128x128 .f32) (x6 x7 x8 x9 x10 : Vec Ideal S1x128 .f32) (p : Fin 2000) (q : Fin 128) :
    k2_pay1 (F := Ideal) (k2_pay2 x2 x0 x1 x3 x5 x4 x6 x9) x10 x7 x8 (ix2 p q)
      = Cert.Spec.convRows (x2 (ix2 (0 : Fin 1) (0 : Fin 1))) x0 x1 x3 x4 x5 x6 x7 x8 x9 x10 (ix2 p q) := by
  unfold k2_pay1 k2_pay2 Cert.Spec.convRows Cert.Spec.bnRelu Cert.Spec.dense Cert.Spec.leaky
  simp only [shapeCast_self, maximumf_apply, addf_apply, mulf_apply, subf_apply, broadcast_apply, select_apply, cmpf_apply,
    truncf_apply, broadcastTo_1b_ab_apply, bcast_one_at, mm_at dot_S2000x128_S128x128_S2000x128_1_0_0_1_n_n rfl, rsqrt_at, ix2_row, ix2_col]
  rfl

variable (V : (c : Dev nD) → (b : Ref sig .tc) → Buf (Elt Ideal) ((c : Thread nD τ).loc b))

theorem idx_rows2 : ∀ t : Fin cfg2.N,
    win2_0.index t (0 : Fin 2) = t.val ∧ win2_1.index t (0 : Fin 2) = t.val ∧ win2_11.index t (0 : Fin 2) = t.val :=
  (by decide +kernel : ∀ t : Fin grid2.N, _)

def rowAt2 (t : Fin cfg2.N) (p : Fin 2000) : Fin 50000 :=
  ⟨t.val * 2000 + p.val, by have ht : t.val < 25 := lt_of_lt_of_eq t.isLt N_2; have hp := p.isLt; omega⟩

theorem blk2_0 (c : Dev nD) (t : Fin cfg2.N) (p : Fin 2000) (k : Fin 128) :
    iblk2 (F := Ideal) V c 0 t (ix2 p k) = (V c main_v31 : S50000x128.Idx → EReal) (ix2 (rowAt2 t p) k) :=
  congrArg (V c main_v31) (Shape.idx_ext₂ ((win2_0.rect_emb_val t (ix2 p k) (0 : Fin 2)).trans (congrArg (· * 2000 + p.val) (idx_rows2 t).1))
    (win2_0.rect_emb_val_of_index_zero t (1 : Fin 2) rfl (ix2 p k)))

theorem blk2_1 (c : Dev nD) (t : Fin cfg2.N) (p : Fin 2000) (k : Fin 128) :
    iblk2 (F := Ideal) V c 1 t (ix2 p k) = (V c main_v49 : S50000x128.Idx → EReal) (ix2 (rowAt2 t p) k) :=
  congrArg (V c main_v49) (Shape.idx_ext₂ ((win2_1.rect_emb_val t (ix2 p k) (0 : Fin 2)).trans (congrArg (· * 2000 + p.val) (idx_rows2 t).2.1))
    (win2_1.rect_emb_val_of_index_zero t (1 : Fin 2) rfl (ix2 p k)))

theorem emb_out2 (t : Fin cfg2.N) (p : Fin 2000) (q : Fin 128) :
    (((cfg2.win 11).blk t).view.emb (ix2 p q) : S50000x128.Idx) = ix2 (rowAt2 t p) q :=
  Shape.idx_ext₂ ((win2_11.rect_emb_val t (ix2 p q) (0 : Fin 2)).trans (congrArg (· * 2000 + p.val) (idx_rows2 t).2.2))
    (win2_11.rect_emb_val_of_index_zero t (1 : Fin 2) rfl (ix2 p q))

-- a window that sits at the origin and is as large as its array reads the array itself
theorem blk2_2 (c : Dev nD) (t : Fin cfg2.N) : iblk2 (F := Ideal) V c 2 t = (V c main_v50 : S1x1.Idx → EReal) :=
  Memref.read_access_unit_zero (Elt Ideal) main_v50 (off_zero rfl rfl) _ _
theorem blk2_3 (c : Dev nD) (t : Fin cfg2.N) : iblk2 (F := Ideal) V c 3 t = (V c main_arg18 : S128x128.Idx → EReal) :=
  Memref.read_access_unit_zero (Elt Ideal) main_arg18 (off_zero rfl rfl) _ _
theorem blk2_4 (c : Dev nD) (t : Fin cfg2.N) : iblk2 (F := Ideal) V c 4 t = (V c main_v51 : S1x128.Idx → EReal) :=
  Memref.read_access_unit_zero (Elt Ideal) main_v51 (off_zero rfl rfl) _ _
theorem blk2_5 (c : Dev nD) (t : Fin cfg2.N) : iblk2 (F := Ideal) V c 5 t = (V c main_arg20 : S128x128.Idx → EReal) :=
  Memref.read_access_unit_zero (Elt Ideal) main_arg20 (off_zero rfl rfl) _ _
theorem blk2_6 (c : Dev nD) (t : Fin cfg2.N) : iblk2 (F := Ideal) V c 6 t = (V c main_v52 : S1x128.Idx → EReal) :=
  Memref.read_access_unit_zero (Elt Ideal) main_v52 (off_zero rfl rfl) _ _
theorem blk2_7 (c : Dev nD) (t : Fin cfg2.N) : iblk2 (F := Ideal) V c 7 t = (V c main_v53 : S1x128.Idx → EReal) :=
  Memref.read_access_unit_zero (Elt Ideal) main_v53 (off_zero rfl rfl) _ _
theorem blk2_8 (c : Dev nD) (t : Fin cfg2.N) : iblk2 (F := Ideal) V c 8 t = (V c main_v54 : S1x128.Idx → EReal) :=
  Memref.read_access_unit_zero (Elt Ideal) main_v54 (off_zero rfl rfl) _ _
theorem blk2_9 (c : Dev nD) (t : Fin cfg2.N) : iblk2 (F := Ideal) V c 9 t = (V c main_v55 : S1x128.Idx → EReal) :=
  Memref.read_access_unit_zero (Elt Ideal) main_v55 (off_zero rfl rfl) _ _
theorem blk2_10 (c : Dev nD) (t : Fin cfg2.N) : iblk2 (F := Ideal) V c 10 t = (V c main_v56 : S1x128.Idx → EReal) :=
  Memref.read_access_unit_zero (Elt Ideal) main_v56 (off_zero rfl rfl) _ _

abbrev G2 (c : Dev nD) : S50000x128.Idx → EReal :=
  Cert.Spec.convRows ((V c main_v50 : S1x1.Idx → EReal) (ix2 0 0)) (V c main_v31) (V c main_v49) (V c main_arg18) (V c main_v51)
    (V c main_arg20) (V c main_v52) (V c main_v53) (V c main_v54) (V c main_v55) (V c main_v56)

theorem flushed_eq2 (c : Dev nD) (t : Fin cfg2.N) :
    (dat2 (F := Ideal) V c).flushed 11 t = ((cfg2.win 11).blk t).view.read (Elt Ideal) (G2 V c) := by
  show (cfg2.win 11).cut (grid2.coords t) ((dat2 V c).after 11 t) = _
  rw [after2_11]
  unfold out2_11
  rw [View.canon_unit_zero zero2]
  simp only [View.ld_unit_zero (S := S2000x128) zero2, View.ld_unit_zero (S := S1x1) zero2, View.ld_unit_zero (S := S128x128) zero2,
    View.ld_unit_zero (S := S1x128) zero2]
  funext j
  obtain ⟨p, q, rfl⟩ : ∃ (p : Fin 2000) (q : Fin 128), j = ix2 p q := ⟨j 0, j 1, eq_ix2 j⟩
  show k2_pay1 (F := Ideal) (k2_pay2 (iblk2 V c 2 t) (iblk2 V c 0 t) (iblk2 V c 1 t) (iblk2 V c 3 t) (iblk2 V c 5 t) (iblk2 V c 4 t)
      (iblk2 V c 6 t) (iblk2 V c 9 t)) (iblk2 V c 10 t) (iblk2 V c 7 t) (iblk2 V c 8 t) (ix2 p q)
    = G2 V c (((cfg2.win 11).blk t).view.emb (ix2 p q))
  rw [emb_out2 t p q, pay_apply2, blk2_2 V c t, blk2_3 V c t, blk2_4 V c t, blk2_5 V c t, blk2_6 V c t, blk2_7 V c t, blk2_8 V c t,
    blk2_9 V c t, blk2_10 V c t]
  exact convRows_row _ _ _ _ _ _ _ _ _ _ _ _ _ p (rowAt2 t p) q (blk2_0 V c t p) (blk2_1 V c t p)

theorem cover2 (i : S50000x128.Idx) :
    ∃ t : Fin cfg2.N, (cfg2.win 11).flush t = true ∧ i ∈ ((cfg2.win 11).blk t).view.set := by
  have hi0 : (i 0).val < 50000 := (i 0).isLt
  have hN : (i 0).val / 2000 < cfg2.N := by show (i 0).val / 2000 < grid2.N; rw [N_2]; omega
  refine ⟨⟨(i 0).val / 2000, hN⟩, flush2_11 _, ?_⟩
  show i ∈ ((View.whole main_v57).slice (win2_11.rect ⟨(i 0).val / 2000, hN⟩)).set
  rw [View.set_slice_whole, Rect.mem_set_unit]
  exact Fin.forall_fin_two.2 ⟨row_bounds (by decide) (idx_rows2 _).2.2, col_bounds rfl (i 1).isLt⟩

theorem final2 (c : Dev nD) : ((dat2 (F := Ideal) V c).arrAt 11 cfg2.N : S50000x128.Idx → EReal) =
    Cert.Spec.convRows ((V c main_v50 : S1x1.Idx → EReal) (ValueIdx.ix2 0 0)) (V c main_v31) (V c main_v49) (V c main_arg18) (V c main_v51)
      (V c main_arg20) (V c main_v52) (V c main_v53) (V c main_v54) (V c main_v55) (V c main_v56) :=
  (dat2 V c).arrAt_eq_of_cover 11 (G2 V c) (fun t _ => flushed_eq2 V c t) cover2

end Cert.KernelIdeal.HandVal

end
-- ==== Proof.KI.Val3.lean ====
import proofs.«418815_j86294482911410_2_alg».proof.Proof.KI.R3
import proofs.«418815_j86294482911410_2_alg».proof.Proof.KI.ValLib

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.ShloMosaic.Tactic
open Idealize.SL.Sem
open Idealize.ShloMosaic.Pipeline (Dat)

def kEquiv3 : dot_S5000x64_S5000x128_S64x128_0_0_1_1_n_n.contr.Idx ≃ Fin 5000 :=
  contrEquiv1 dot_S5000x64_S5000x128_S64x128_0_0_1_1_n_n 5000 (by decide) (by decide)

theorem pay3_1_apply (j : S64x128.Idx) : (k3_pay1 (F := Ideal)) j = 0 := by
  unfold k3_pay1
  rw [shapeCast_self, broadcast_apply]
  exact Ideal.ofBits_zero_f32

def dotCols3 (a : S5000x64.Idx → EReal) (b : S5000x128.Idx → EReal) (j : S64x128.Idx) : EReal :=
  ∑ k : Fin 5000, a (ix2 k (j 0 : Fin 64)) * b (ix2 k (j 1 : Fin 128))

-- both operands are contracted along their rows
theorem pay3_2_apply (x0 : Vec Ideal S5000x64 .bf16) (x1 : Vec Ideal S5000x128 .f32) (acc : Vec Ideal S64x128 .f32) (j : S64x128.Idx) :
    k3_pay2 x0 x1 acc j = acc j + dotCols3 x0 x1 j := by
  unfold k3_pay2 dotCols3
  simp only [shapeCast_self, matmul]
  rw [addf_apply, Ideal.matmul_constant_zero_apply, ← Equiv.sum_comp kEquiv3.symm]
  refine congrArg (acc j + ·) (Finset.sum_congr rfl fun k _ => ?_)
  have hk := contrEquiv1_symm_val dot_S5000x64_S5000x128_S64x128_0_0_1_1_n_n 5000 (by decide) (by decide) k
  exact congrArg₂ (· * ·) (congrArg x0 (Shape.idx_ext₂ hk rfl)) (congrArg x1 (Shape.idx_ext₂ hk rfl))

def rowOf3 (b : Fin 10) (k : Fin 5000) : Fin 50000 := ⟨b.val * 5000 + k.val, by have := b.isLt; have := k.isLt; omega⟩

theorem sum_rows3 {M : Type*} [AddCommMonoid M] (f : Fin 50000 → M) :
    ∑ n : Fin 50000, f n = ∑ b : Fin 10, ∑ k : Fin 5000, f (rowOf3 b k) := by
  rw [← Fintype.sum_prod_type' (f := fun b k => f (rowOf3 b k)),
    ← Equiv.sum_comp (finProdFinEquiv (m := 10) (n := 5000)) f]
  refine Finset.sum_congr rfl fun p _ => congrArg f (Fin.ext ?_)
  show p.2.val + 5000 * p.1.val = p.1.val * 5000 + p.2.val
  omega

section AnyF
variable {F : FTy → Type} [FloatOps F] (c : Dev nD) (i : grid3.Coords)
  (arg1 : Memref sig .tc .vmem S5000x64 .bf16) (harg1 : arg1.IsWhole) (arg2 : Memref sig .tc .vmem S5000x128 .f32) (harg2 : arg2.IsWhole)
  (arg3 : Memref sig .tc .vmem S64x128 .f32) (harg3 : arg3.IsWhole) (arg4 : Memref sig .tc .vmem S64x128 .f32) (harg4 : arg4.IsWhole)
  (x0 : Vec F S5000x64 .bf16) (x1 : Vec F S5000x128 .f32) (xs0 : Vec F S64x128 .f32)

theorem soutA3_eq (hc0 : cond3_0 i) (hc1 : ¬cond3_1 i) :
    sout3_A_0 c i arg1 harg1 arg2 harg2 arg3 harg3 arg4 harg4 hc0 hc1 x0 x1 = k3_pay2 x0 x1 (k3_pay1 (F := F)) := by
  unfold sout3_A_0
  rw [View.read_writes_eq_canon _ _ _ (scover3_A_0 c i arg1 harg1 arg2 harg2 arg3 harg3 arg4 harg4 hc0 hc1 x0 x1)]
  unfold kernelRun3_A
  dsimp only
  try sl_unfold_words
  rw [View.canon_cons_unit_zero zero2]
  simp only [View.readAt_eq_ld, harg1.read_unread, harg2.read_unread, View.ld_unit_zero (S := S5000x64) zero2, View.ld_unit_zero (S := S5000x128) zero2, View.readCov_unit_zero (S := S64x128) _ zero2]

theorem soutB3_eq (hc0 : ¬cond3_0 i) (hc1 : ¬cond3_1 i) :
    sout3_B_0 c i arg1 harg1 arg2 harg2 arg3 harg3 arg4 harg4 hc0 hc1 x0 x1 xs0 = k3_pay2 x0 x1 xs0 := by
  unfold sout3_B_0
  rw [View.read_writes_eq_canon _ _ _ (scover3_B_0 c i arg1 harg1 arg2 harg2 arg3 harg3 arg4 harg4 hc0 hc1 x0 x1 xs0)]
  unfold kernelRun3_B
  dsimp only
  try sl_unfold_words
  rw [View.canon_unit_zero zero2]
  simp only [View.readAt_eq_ld, harg1.read_unread, harg2.read_unread, harg4.read_unread, View.ld_unit_zero (S := S5000x64) zero2, View.ld_unit_zero (S := S5000x128) zero2, View.ld_unit_zero (S := S64x128) zero2]

theorem outC3_eq (hc0 : ¬cond3_0 i) (hc1 : cond3_1 i) :
    out3_C_2 c i arg1 harg1 arg2 harg2 arg3 harg3 arg4 harg4 hc0 hc1 x0 x1 xs0 = k3_pay2 x0 x1 xs0 := by
  unfold out3_C_2
  rw [View.read_writes_eq_canon _ _ _ (cover3_C_2 c i arg1 harg1 arg2 harg2 arg3 harg3 arg4 harg4 hc0 hc1 x0 x1 xs0)]
  unfold kernelRun3_C
  dsimp only
  try sl_unfold_words
  rw [View.canon_unit_zero zero2, View.readCov_unit_zero (S := S64x128) _ zero2]
  simp only [View.readAt_eq_ld, harg1.read_unread, harg2.read_unread, harg4.read_unread, View.ld_unit_zero (S := S5000x64) zero2, View.ld_unit_zero (S := S5000x128) zero2, View.ld_unit_zero (S := S64x128) zero2]

theorem soutC3_eq (hc0 : ¬cond3_0 i) (hc1 : cond3_1 i) :
    sout3_C_0 c i arg1 harg1 arg2 harg2 arg3 harg3 arg4 harg4 hc0 hc1 x0 x1 xs0 = k3_pay2 x0 x1 xs0 := by
  unfold sout3_C_0
  rw [View.read_writes_eq_canon _ _ _ (scover3_C_0 c i arg1 harg1 arg2 harg2 arg3 harg3 arg4 harg4 hc0 hc1 x0 x1 xs0)]
  unfold kernelRun3_C
  dsimp only
  try sl_unfold_words
  rw [View.canon_unit_zero zero2]
  simp only [View.readAt_eq_ld, harg1.read_unread, harg2.read_unread, harg4.read_unread, View.ld_unit_zero (S := S5000x64) zero2, View.ld_unit_zero (S := S5000x128) zero2, View.ld_unit_zero (S := S64x128) zero2]

end AnyF

variable (V : (c : Dev nD) → (b : Ref sig .tc) → Buf (Elt Ideal) ((c : Thread nD τ).loc b))

theorem idx3 : ∀ t : Fin cfg3.N, win3_0.index t (0 : Fin 2) = t.val ∧ win3_1.index t (0 : Fin 2) = t.val :=
  (by decide +kernel : ∀ t : Fin grid3.N, _)

theorem iblk3_0_at (c : Dev nD) (t : Fin cfg3.N) (k : Fin 5000) (g : Fin 64) (r : Fin 50000) (hr : r.val = t.val * 5000 + k.val) :
    (iblk3 V c 0 t : Vec Ideal S5000x64 .bf16) (ix2 k g) = (V c main_v66 : S50000x64.Idx → EReal) (ix2 r g) :=
  congrArg (V c main_v66) (Shape.idx_ext₂
    ((win3_0.rect_emb_val t (ix2 k g) (0 : Fin 2)).trans ((congrArg (· * 5000 + k.val) (idx3 t).1).trans hr.symm))
    (win3_0.rect_emb_val_of_index_zero t (1 : Fin 2) rfl (ix2 k g)))

theorem iblk3_1_at (c : Dev nD) (t : Fin cfg3.N) (k : Fin 5000) (g : Fin 128) (r : Fin 50000) (hr : r.val = t.val * 5000 + k.val) :
    (iblk3 V c 1 t : Vec Ideal S5000x128 .f32) (ix2 k g) = (V c main_v57 : S50000x128.Idx → EReal) (ix2 r g) :=
  congrArg (V c main_v57) (Shape.idx_ext₂
    ((win3_1.rect_emb_val t (ix2 k g) (0 : Fin 2)).trans ((congrArg (· * 5000 + k.val) (idx3 t).2).trans hr.symm))
    (win3_1.rect_emb_val_of_index_zero t (1 : Fin 2) rfl (ix2 k g)))

def blockTerm3 (c : Dev nD) (t : Fin cfg3.N) (j : S64x128.Idx) : EReal :=
  dotCols3 (iblk3 V c 0 t) (iblk3 V c 1 t) j

theorem scratch3_eq (c : Dev nD) : ∀ (n : ℕ) (hn : n < cfg3.N) (j : S64x128.Idx),
    (outsAt3 V c n hn).2 j = ∑ b : Fin (n + 1), blockTerm3 V c ⟨b.val, lt_of_lt_of_le b.isLt hn⟩ j
  | 0, hn, j => by
    rw [outsAt3_A V c ⟨0, hn⟩ (Nat.zero_mod _) (show ¬(0 : ℕ) % 10 = 9 by decide)]
    dsimp only
    rw [soutA3_eq, pay3_2_apply, pay3_1_apply, Fin.sum_univ_one]
    exact zero_add _
  | n + 1, hn, j => by
    have hN : n + 1 < 10 := lt_of_lt_of_eq hn N_3
    have h0 : ¬(n + 1) % 10 = 0 := by omega
    have step : (outsAt3 V c (n + 1) hn).2
        = k3_pay2 (iblk3 V c 0 ⟨n + 1, hn⟩) (iblk3 V c 1 ⟨n + 1, hn⟩) (outsAt3 V c n (Nat.lt_of_succ_lt hn)).2 := by
      by_cases h1 : (n + 1) % 10 = 9
      · rw [outsAt3_C V c ⟨n + 1, hn⟩ h0 h1]; dsimp only; exact soutC3_eq (F := Ideal) ..
      · rw [outsAt3_B V c ⟨n + 1, hn⟩ h0 h1]; dsimp only; exact soutB3_eq (F := Ideal) ..
    rw [Fin.sum_univ_castSucc, step, pay3_2_apply, scratch3_eq c n (Nat.lt_of_succ_lt hn) j]
    rfl

abbrev result3 (c : Dev nD) : S64x128.Idx → EReal := Cert.Spec.ohT (V c main_v66) (V c main_v57)

theorem out3_last (c : Dev nD) : (outsAt3 V c t3_9.val t3_9.isLt).1 = result3 V c := by
  have e : (outsAt3 V c t3_9.val t3_9.isLt).1 = (outsAt3 V c t3_9.val t3_9.isLt).2 := by
    rw [outsAt3_C V c t3_9 (by decide) (by decide)]
    dsimp only
    rw [outC3_eq, soutC3_eq]
  rw [e]
  funext j
  rw [scratch3_eq]
  unfold result3 Cert.Spec.ohT
  rw [sum_rows3]
  refine Finset.sum_congr rfl fun b _ => ?_
  unfold blockTerm3 dotCols3
  refine Finset.sum_congr rfl fun k _ => ?_
  exact congrArg₂ (· * ·) (iblk3_0_at V c _ k _ (rowOf3 b k) rfl) (iblk3_1_at V c _ k _ (rowOf3 b k) rfl)

theorem flushed3_eq (c : Dev nD) (t : Fin cfg3.N) (hf : (cfg3.win 2).flush t = true) :
    (dat3 V c).flushed 2 t = ((cfg3.win 2).blk t).view.read (Elt Ideal) (result3 V c) := by
  have hN : cfg3.N = 10 := N_3
  have h1 : t.val = 9 := by have := (flush3_2 t).mp hf; have := t.isLt; omega
  obtain rfl : t = t3_9 := Fin.ext h1
  show (cfg3.win 2).cut (grid3.coords t3_9) ((dat3 V c).after 2 t3_9) = _
  rw [after3_2, out3_last]
  exact (Memref.read_access_unit_zero (Elt Ideal) main_v67 (off_zero rfl rfl) _ (result3 V c)).symm

theorem final3 (c : Dev nD) :
    ((dat3 (F := Ideal) V c).arrAt 2 cfg3.N : S64x128.Idx → EReal) = Cert.Spec.ohT (V c main_v66) (V c main_v57) :=
  (dat3 V c).arrAt_eq_of_cover 2 (result3 V c) (flushed3_eq V c) fun i =>
    ⟨t3_9, (flush3_2 t3_9).mpr rfl, by
      show i ∈ ((View.whole main_v67).slice (win3_2.rect t3_9)).set
      rw [View.set_slice_whole]
      exact View.mem_set_unit_zero (off_zero rfl rfl) _ i⟩

end Cert.KernelIdeal.HandVal

end
-- ==== Proof.KI.Val4.lean ====
import proofs.«418815_j86294482911410_2_alg».proof.Proof.KI.R4
import proofs.«418815_j86294482911410_2_alg».proof.Proof.KI.ValLib

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem

theorem logistic_at {s : Shape} (v : FVec Ideal s .f32) (i : s.Idx) : logistic v i = Ideal.logistic (v i) := rfl

theorem pay4_apply (v0 : Vec Ideal S64x128 .f32) (v2 : Vec Ideal S128x128 .f32) (v4 : Vec Ideal S128x1 .f32) (v8 : Vec Ideal S1x128 .f32) (v19 : Vec Ideal S1x1 .f32) (p : Fin 64) (q : Fin 1) :
    k4_pay1 (F := Ideal) v0 v2 v4 v8 v19 (ix2 p q) = Cert.Spec.head v0 v2 v8 v4 v19 (ix2 p q) := by
  unfold k4_pay1 Cert.Spec.head Cert.Spec.dense Cert.Spec.leaky
  simp only [shapeCast_self, logistic_at, addf_apply, mulf_apply, broadcast_apply, select_apply, cmpf_apply, truncf_apply,
    broadcastTo_1b_ab_apply, mm_at dot_S64x128_S128x128_S64x128_1_0_0_1_n_n rfl, mm_at dot_S64x128_S128x1_S64x1_1_0_0_1_n_n rfl,
    ix2_row, ix2_col]
  rfl

variable (V : (c : Dev nD) → (b : Ref sig .tc) → Buf (Elt Ideal) ((c : Thread nD τ).loc b))

-- every window of this launch sits at the origin and is as large as its array
theorem iblk4_0_eq (c : Dev nD) (t : Fin cfg4.N) : (iblk4 V c 0 t : S64x128.Idx → EReal) = V c main_v72 :=
  Memref.read_access_unit_zero (Elt Ideal) main_v72 (off_zero rfl rfl) _ _
theorem iblk4_1_eq (c : Dev nD) (t : Fin cfg4.N) : (iblk4 V c 1 t : S128x128.Idx → EReal) = V c main_arg26 :=
  Memref.read_access_unit_zero (Elt Ideal) main_arg26 (off_zero rfl rfl) _ _
theorem iblk4_2_eq (c : Dev nD) (t : Fin cfg4.N) : (iblk4 V c 2 t : S1x128.Idx → EReal) = V c main_v73 :=
  Memref.read_access_unit_zero (Elt Ideal) main_v73 (off_zero rfl rfl) _ _
theorem iblk4_3_eq (c : Dev nD) (t : Fin cfg4.N) : (iblk4 V c 3 t : S128x1.Idx → EReal) = V c main_arg28 :=
  Memref.read_access_unit_zero (Elt Ideal) main_arg28 (off_zero rfl rfl) _ _
theorem iblk4_4_eq (c : Dev nD) (t : Fin cfg4.N) : (iblk4 V c 4 t : S1x1.Idx → EReal) = V c main_v74 :=
  Memref.read_access_unit_zero (Elt Ideal) main_v74 (off_zero rfl rfl) _ _

theorem read4_5 (t : Fin cfg4.N) (G : S64x1.Idx → EReal) : ((cfg4.win 5).blk t).view.read (Elt Ideal) G = G :=
  Memref.read_access_unit_zero (Elt Ideal) main_v75 (off_zero rfl rfl) _ G

theorem flushed4_eq (c : Dev nD) (t : Fin cfg4.N) :
    (dat4 (F := Ideal) V c).flushed 5 t
      = ((cfg4.win 5).blk t).view.read (Elt Ideal) (Cert.Spec.head (V c main_v72) (V c main_arg26) (V c main_v73) (V c main_arg28) (V c main_v74)) := by
  show (cfg4.win 5).cut (grid4.coords t) ((dat4 V c).after 5 t) = _
  rw [after4_5, read4_5]
  unfold out4_5
  rw [View.canon_unit_zero zero2]
  simp only [View.ld_unit_zero (S := S64x128) zero2, View.ld_unit_zero (S := S128x128) zero2, View.ld_unit_zero (S := S1x128) zero2, View.ld_unit_zero (S := S128x1) zero2, View.ld_unit_zero (S := S1x1) zero2]
  funext j
  obtain ⟨p, q, rfl⟩ : ∃ (p : Fin 64) (q : Fin 1), j = ix2 p q := ⟨j 0, j 1, eq_ix2 j⟩
  show k4_pay1 (F := Ideal) (iblk4 V c 0 t) (iblk4 V c 1 t) (iblk4 V c 3 t) (iblk4 V c 2 t) (iblk4 V c 4 t) (ix2 p q) = _
  rw [iblk4_0_eq V c t, iblk4_1_eq V c t, iblk4_2_eq V c t, iblk4_3_eq V c t, iblk4_4_eq V c t]
  exact pay4_apply _ _ _ _ _ p q

theorem final4 (c : Dev nD) : ((dat4 (F := Ideal) V c).arrAt 5 cfg4.N : S64x1.Idx → EReal)
    = Cert.Spec.head (V c main_v72) (V c main_arg26) (V c main_v73) (V c main_arg28) (V c main_v74) :=
  (dat4 (F := Ideal) V c).arrAt_eq_of_cover 5 _ (fun t _ => flushed4_eq V c t) fun i => ⟨t4_0, flush4_5 t4_0, by
    show i ∈ ((View.whole main_v75).slice (win4_5.rect t4_0)).set
    rw [View.set_slice_whole]
    exact View.mem_set_unit_zero (off_zero rfl rfl) _ i⟩

end Cert.KernelIdeal.HandVal

end
-- ==== Proof.KI.KernelRun.lean ====
import proofs.«418815_j86294482911410_2_alg».proof.Proof.KI.RunCond
import proofs.«418815_j86294482911410_2_alg».proof.Proof.KI.KVal
import proofs.«418815_j86294482911410_2_alg».proof.Proof.KI.Val0
import proofs.«418815_j86294482911410_2_alg».proof.Proof.KI.Val1
import proofs.«418815_j86294482911410_2_alg».proof.Proof.KI.Val2
import proofs.«418815_j86294482911410_2_alg».proof.Proof.KI.Val3
import proofs.«418815_j86294482911410_2_alg».proof.Proof.KI.Val4

set_option maxRecDepth 16384

noncomputable section

namespace Cert.KernelIdeal.HandVal

open Cert.KernelIdeal Cert.KernelIdeal.Gen Cert.KernelIdeal.Hand Cert.Spec
open Idealize.ShloMosaic Idealize.ShloMosaic.TcCoe Idealize.ShloMosaic.ValueIdx Idealize.SL.Sem

variable (m : (ℓ : Loc nD τ sig) → Buf (Elt Ideal) ℓ)

def kres (c : Dev nD) : Buf (Elt Ideal) ((c.tc : Thread nD τ).loc main_v76) := fun i : S64.Idx =>
      Cert.Spec.model
      (gath (m ((c : Thread nD τ).loc main_arg2) : IVec S2x800000 32))
      (scat (m ((c : Thread nD τ).loc main_arg2) : IVec S2x800000 32))
      (fun n => (m ((c : Thread nD τ).loc main_arg3) : IVec S50000 32) (ix1 n))
      (m ((c : Thread nD τ).loc main_arg0) : S50000x1.Idx → EReal)
      (m ((c : Thread nD τ).loc main_arg1) : S800000x1.Idx → EReal)
      (m ((c : Thread nD τ).loc main_arg4) : S1x128.Idx → EReal)
      (Cert.Spec.row (m ((c : Thread nD τ).loc main_arg5) : S128.Idx → EReal))
      (m ((c : Thread nD τ).loc main_arg6) : S1x128.Idx → EReal)
      (Cert.Spec.row (m ((c : Thread nD τ).loc main_arg7) : S128.Idx → EReal))
      ((m ((c : Thread nD τ).loc main_arg8) : S_.Idx → EReal) ix0)
      (m ((c : Thread nD τ).loc main_arg9) : S128x128.Idx → EReal)
      (Cert.Spec.row (m ((c : Thread nD τ).loc main_arg10) : S128.Idx → EReal))
      (m ((c : Thread nD τ).loc main_arg11) : S128x128.Idx → EReal)
      (Cert.Spec.row (m ((c : Thread nD τ).loc main_arg12) : S128.Idx → EReal))
      (Cert.Spec.row (m ((c : Thread nD τ).loc main_arg13) : S128.Idx → EReal))
      (Cert.Spec.row (m ((c : Thread nD τ).loc main_arg14) : S128.Idx → EReal))
      (Cert.Spec.row (m ((c : Thread nD τ).loc main_arg15) : S128.Idx → EReal))
      (Cert.Spec.row (m ((c : Thread nD τ).loc main_arg16) : S128.Idx → EReal))
      ((m ((c : Thread nD τ).loc main_arg17) : S_.Idx → EReal) ix0)
      (m ((c : Thread nD τ).loc main_arg18) : S128x128.Idx → EReal)
      (Cert.Spec.row (m ((c : Thread nD τ).loc main_arg19) : S128.Idx → EReal))
      (m ((c : Thread nD τ).loc main_arg20) : S128x128.Idx → EReal)
      (Cert.Spec.row (m ((c : Thread nD τ).loc main_arg21) : S128.Idx → EReal))
      (Cert.Spec.row (m ((c : Thread nD τ).loc main_arg22) : S128.Idx → EReal))
      (Cert.Spec.row (m ((c : Thread nD τ).loc main_arg23) : S128.Idx → EReal))
      (Cert.Spec.row (m ((c : Thread nD τ).loc main_arg24) : S128.Idx → EReal))
      (Cert.Spec.row (m ((c : Thread nD τ).loc main_arg25) : S128.Idx → EReal))
      (m ((c : Thread nD τ).loc main_arg26) : S128x128.Idx → EReal)
      (Cert.Spec.row (m ((c : Thread nD τ).loc main_arg27) : S128.Idx → EReal))
      (m ((c : Thread nD τ).loc main_arg28) : S128x1.Idx → EReal)
      (Cert.Spec.row (m ((c : Thread nD τ).loc main_arg29) : S1.Idx → EReal))
      (ix2 (i 0) 0)

-- each stage's result is a function of its operands, and each operand is an input or an earlier stage's result
theorem conv1_eq (c : Dev nD) :
    outs m 6 main_v31 c = convRows ((V0 m c main_arg8 : S_.Idx → EReal) ix0) (outs m 2 main_v5 c)
      (agg (srcRow (V0 m c main_arg2)) (dstRow (V0 m c main_arg2)) (outs m 2 main_v5 c) (V0 m c main_arg1) (V0 m c main_arg6) (V0 m c main_arg7))
      (V0 m c main_arg9) (row (V0 m c main_arg10)) (V0 m c main_arg11) (row (V0 m c main_arg12)) (row (V0 m c main_arg13))
      (row (V0 m c main_arg14)) (row (V0 m c main_arg15)) (row (V0 m c main_arg16)) := by
  have e := (outs_6 m c).trans (final1 _ c)
  unfold V5 at e
  rw [s_v23, s_v24, s_v25, s_v26, s_v27, s_v28, s_v29, s_v30] at e
  simpa (disch := decide) only [after_keep hostOps0_writes, after_keep hostOps1_writes, after_keep hostOps1_1_writes, after_keep hostOps1_2_writes, set_keep, Function.update_self, s_v1, s_v3] using e

theorem conv2_eq (c : Dev nD) :
    outs m 10 main_v57 c = convRows ((V0 m c main_arg17 : S_.Idx → EReal) ix0) (outs m 6 main_v31 c)
      (agg (srcRow (V0 m c main_arg2)) (dstRow (V0 m c main_arg2)) (outs m 6 main_v31 c) (V0 m c main_arg1) (V0 m c main_arg6) (V0 m c main_arg7))
      (V0 m c main_arg18) (row (V0 m c main_arg19)) (V0 m c main_arg20) (row (V0 m c main_arg21)) (row (V0 m c main_arg22))
      (row (V0 m c main_arg23)) (row (V0 m c main_arg24)) (row (V0 m c main_arg25)) := by
  have e := (outs_10 m c).trans (final2 _ c)
  unfold V9 at e
  rw [s_v49, s_v50, s_v51, s_v52, s_v53, s_v54, s_v55, s_v56] at e
  simpa (disch := decide) only [after_keep hostOps0_writes, after_keep hostOps1_writes, after_keep hostOps1_1_writes, after_keep hostOps1_2_writes, after_keep hostOps2_writes,
    after_keep hostOps2_1_writes, after_keep hostOps2_2_writes, set_keep, Function.update_self, s_v1, s_v3] using e

theorem kernel_value (c : Dev nD) : V15 m (outs m) c main_v76 = kres m c := by
  have e2 := (outs_2 m c).trans (final0 _ c)
  have e12 := (outs_12 m c).trans (final3 _ c)
  have e14 := (outs_14 m c).trans (final4 _ c)
  unfold V1 at e2
  unfold V11 at e12
  unfold V13 at e14
  unfold V15
  rw [s_v4] at e2
  rw [s_v66] at e12
  rw [s_v72, s_v73, s_v74] at e14
  rw [s_v76]
  simp (disch := decide) only [after_keep hostOps0_writes, after_keep hostOps1_writes, after_keep hostOps1_1_writes, after_keep hostOps1_2_writes, after_keep hostOps2_writes,
    after_keep hostOps2_1_writes, after_keep hostOps2_2_writes, after_keep hostOps3_writes, after_keep hostOps4_writes, set_keep, Function.update_self, s_v65] at e2 e12 e14 ⊢
  rw [e14, e12, member_prod, conv2_eq, conv1_eq, e2, agg_eq, agg_eq]
  rfl

theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v76) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run _ _ _).mono (fun r h c =>
    have key : ∀ (b : Ref sig .tc) (x : Buf (Elt Ideal) ((c.tc : Thread nD τ).loc b)), ¬ (Proc.devRef (τ := τ) .tc b).isScoped →
        V15 m (outs m) c b = x → r.2.mem ((c.tc : Thread nD τ).loc b) = x :=
      fun b x hb hx => (h c _ (Finset.mem_filter.mpr ⟨StableHlo.devRef_mem_tcRefs b, hb⟩)).trans hx
    ⟨key _ _ (by decide) (kernel_value m c),
      key _ _ (by decide) (V15_main_arg0 m (outs m) c),
      key _ _ (by decide) (V15_main_arg1 m (outs m) c),
      key _ _ (by decide) (V15_main_arg2 m (outs m) c),
      key _ _ (by decide) (V15_main_arg3 m (outs m) c),
      key _ _ (by decide) (V15_main_arg4 m (outs m) c),
      key _ _ (by decide) (V15_main_arg5 m (outs m) c),
      key _ _ (by decide) (V15_main_arg6 m (outs m) c),
      key _ _ (by decide) (V15_main_arg7 m (outs m) c),
      key _ _ (by decide) (V15_main_arg8 m (outs m) c),
      key _ _ (by decide) (V15_main_arg9 m (outs m) c),
      key _ _ (by decide) (V15_main_arg10 m (outs m) c),
      key _ _ (by decide) (V15_main_arg11 m (outs m) c),
      key _ _ (by decide) (V15_main_arg12 m (outs m) c),
      key _ _ (by decide) (V15_main_arg13 m (outs m) c),
      key _ _ (by decide) (V15_main_arg14 m (outs m) c),
      key _ _ (by decide) (V15_main_arg15 m (outs m) c),
      key _ _ (by decide) (V15_main_arg16 m (outs m) c),
      key _ _ (by decide) (V15_main_arg17 m (outs m) c),
      key _ _ (by decide) (V15_main_arg18 m (outs m) c),
      key _ _ (by decide) (V15_main_arg19 m (outs m) c),
      key _ _ (by decide) (V15_main_arg20 m (outs m) c),
      key _ _ (by decide) (V15_main_arg21 m (outs m) c),
      key _ _ (by decide) (V15_main_arg22 m (outs m) c),
      key _ _ (by decide) (V15_main_arg23 m (outs m) c),
      key _ _ (by decide) (V15_main_arg24 m (outs m) c),
      key _ _ (by decide) (V15_main_arg25 m (outs m) c),
      key _ _ (by decide) (V15_main_arg26 m (outs m) c),
      key _ _ (by decide) (V15_main_arg27 m (outs m) c),
      key _ _ (by decide) (V15_main_arg28 m (outs m) c),
      key _ _ (by decide) (V15_main_arg29 m (outs m) c)⟩)
    (run_all m g)

end Cert.KernelIdeal.HandVal

end
-- ==== Proof.Ref.RefValue.lean ====
import proofs.«418815_j86294482911410_2_alg».proof.Proof.Gen.ReferenceIdeal.Read
import proofs.«418815_j86294482911410_2_alg».proof.Proof.Bridge.Pool
import Idealize.ShloMosaic.PureOps.IdealRules

noncomputable section

namespace Cert.ReferenceIdeal.RefValue

open Cert.ReferenceIdeal Cert.ReferenceIdeal.Gen Idealize.ShloMosaic Idealize.ShloMosaic.ValueIdx Cert.Spec

abbrev Arr (S : Shape) (e : EltTy) : Type := (⟨S, e⟩ : BufTy).Contents (Elt Ideal)

def gath (a2 : Arr S2x800000 .i32) (x : Mat 50000 128) : Mat 800000 128 :=
  Host.gather gather_S50000x128_S800000x1_S800000x128_1_0_n_n_0_1_1128 x (Read.val_main_v17 (F := Ideal) a2)

def scat (a2 : Arr S2x800000 .i32) (u : Mat 800000 128) : Mat 50000 128 :=
  Host.scatterAdd (F := Ideal) (φ := .f32) scatter_S50000x128_S800000x1_S800000x128_1_0_0_1 (Read.val_main_v21 (F := Ideal))
    (Read.val_main_v22 (F := Ideal) a2) u

theorem ext1 {n : Nat} {f g : (⟨1, ![n]⟩ : Shape).Idx} (h : f 0 = g 0) : f = g :=
  funext (Fin.forall_fin_one.2 h)

theorem dense_pt {R K C : Nat} {X x : Mat R K} {w : Mat K C} {b : Vc C} {i : (⟨2, ![R, C]⟩ : Shape).Idx}
    {l : Fin K → (⟨2, ![R, K]⟩ : Shape).Idx} {r : Fin K → (⟨2, ![K, C]⟩ : Shape).Idx} {j : (⟨1, ![C]⟩ : Shape).Idx}
    (hx : ∀ p, X p = x p) (hl : ∀ k, l k = ix2 (i 0) k := by exact fun _ => Shape.idx_ext₂ rfl rfl)
    (hr : ∀ k, r k = ix2 k (i 1) := by exact fun _ => Shape.idx_ext₂ rfl rfl) (hj : j = ix1 (i 1) := by exact ext1 rfl) :
    (∑ k, X (l k) * w (r k)) + b j = dense x w (row b) i := by
  cases funext hx; cases funext hl; cases funext hr; cases hj; rfl

theorem enc_eq_dense {N : Nat} (a : Mat N 1) (w b : Mat 1 128) : enc a w b = dense a w b :=
  funext fun i => congrArg (· + _) (Fin.sum_univ_one fun k => a (ix2 (i 0) k) * w (ix2 k (i 1))).symm

theorem bn_pt {R : Nat} {X : EReal} {x : Mat R 128} {g be mu var : Vc 128} {i : (⟨2, ![R, 128]⟩ : Shape).Idx}
    {jm jv jg jb : (⟨1, ![128]⟩ : Shape).Idx} (hx : X = x i) (hm : jm = ix1 (i 1) := by exact ext1 rfl)
    (hv : jv = ix1 (i 1) := by exact ext1 rfl) (hg : jg = ix1 (i 1) := by exact ext1 rfl) (hb : jb = ix1 (i 1) := by exact ext1 rfl) :
    max ((X - mu jm) * Ideal.rsqrt (var jv + cEps) * g jg + be jb) c0
      = bnRelu x (row g) (row be) (row mu) (row var) i := by
  cases hx; cases hm; cases hv; cases hg; cases hb; rfl

theorem logistic_spelt (x : EReal) : Ideal.div c1 (c1 + Ideal.exp (-x)) = Ideal.logistic x := by
  rw [show c1 = 1 from IdealRules.sign_bit.ideal_onePat .f32]; rfl

variable (a0 : Arr S50000x1 .f32) (a1 : Arr S800000x1 .f32) (a2 : Arr S2x800000 .i32) (a3 : Arr S50000 .i32)
  (a4 a6 : Arr S1x128 .f32) (a8 a17 : Arr S_ .f32) (a9 a11 a18 a20 a26 : Arr S128x128 .f32)
  (a5 a7 a10 a12 a13 a14 a15 a16 a19 a21 a22 a23 a24 a25 a27 : Arr S128 .f32) (a28 : Arr S128x1 .f32) (a29 : Arr S1 .f32)

local notation "R7" => Read.val_main_v7 (F := Ideal) a0 a4 a5
local notation "R11" => Read.val_main_v11 (F := Ideal) a1 a6 a7
local notation "R20" => Read.val_main_v20 (F := Ideal) a0 a1 a2 a4 a5 a6 a7
local notation "R56" => Read.val_main_v56 (F := Ideal) a0 a1 a2 a4 a5 a6 a7 a8 a9 a10 a11 a12 a13 a14 a15 a16
local notation "R65" => Read.val_main_v65 (F := Ideal) a0 a1 a2 a4 a5 a6 a7 a8 a9 a10 a11 a12 a13 a14 a15 a16
local notation "R101" => Read.val_main_v101 (F := Ideal) a0 a1 a2 a4 a5 a6 a7 a8 a9 a10 a11 a12 a13 a14 a15 a16 a17 a18 a19 a20 a21 a22 a23 a24 a25
local notation "R104" => Read.val_main_v104 (F := Ideal) a0 a1 a2 a3 a4 a5 a6 a7 a8 a9 a10 a11 a12 a13 a14 a15 a16 a17 a18 a19 a20 a21 a22 a23 a24 a25
local notation "R108" => Read.val_main_v108 (F := Ideal) a3
local notation "R126" => Read.val_main_v126 (F := Ideal) a0 a1 a2 a3 a4 a5 a6 a7 a8 a9 a10 a11 a12 a13 a14 a15 a16 a17 a18 a19 a20 a21 a22 a23 a24 a25 a26 a27 a28 a29
local notation "R132" => Read.val_main_v132 (F := Ideal) a0 a1 a2 a3 a4 a5 a6 a7 a8 a9 a10 a11 a12 a13 a14 a15 a16 a17 a18 a19 a20 a21 a22 a23 a24 a25 a26 a27 a28 a29
local notation "R133" => Read.val_main_v133 (F := Ideal) a0 a1 a2 a3 a4 a5 a6 a7 a8 a9 a10 a11 a12 a13 a14 a15 a16 a17 a18 a19 a20 a21 a22 a23 a24 a25 a26 a27 a28 a29

theorem nodeRows : R7 = enc a0 a4 (row a5) := by
  rw [enc_eq_dense]
  funext i
  rw [Read.val_main_v7_apply, Read.val_main_v4_apply, Read.val_main_v6_apply, Read.val_main_v5_apply]
  exact dense_pt fun _ => rfl

theorem edgeRows : R11 = enc a1 a6 (row a7) := by
  rw [enc_eq_dense]
  funext i
  rw [Read.val_main_v11_apply, Read.val_main_v8_apply, Read.val_main_v10_apply, Read.val_main_v9_apply]
  exact dense_pt fun _ => rfl

theorem messages1 : R20 = msg (gath a2 R7) R11 := by
  funext i
  rw [Read.val_main_v20_apply, Read.val_main_v19_apply, Read.val_main_call0_v0_apply, Read.val_main_call0_cst_apply]
  rfl

theorem layer1 : R56 = convRows (a8 ix0) R7 (scat a2 R20) a9 (row a10) a11 (row a12) (row a13) (row a14) (row a15) (row a16) := by
  funext i
  rw [Read.val_main_v56_apply, Read.val_main_v55_apply, Read.val_main_v52_apply, Read.val_main_v49_apply, Read.val_main_v43_apply,
    Read.val_main_v42_apply, Read.val_main_v41_apply, Read.val_main_v48_apply, Read.val_main_v47_apply, Read.val_main_v46_apply,
    Read.val_main_v45_apply, Read.val_main_v44_apply, Read.val_main_cst_4_apply, Read.val_main_v51_apply, Read.val_main_v50_apply,
    Read.val_main_v54_apply, Read.val_main_v53_apply, Read.val_main_call2_v0_apply, Read.val_main_call2_cst_apply]
  refine bn_pt ?_
  rw [Read.val_main_v40_apply, Read.val_main_v37_apply, Read.val_main_v39_apply, Read.val_main_v38_apply]
  refine dense_pt fun p => ?_
  rw [Read.val_main_v36_apply, Read.val_main_v33_apply, Read.val_main_v35_apply, Read.val_main_v34_apply, Read.val_main_v32_apply,
    Read.val_main_cst_2_apply, Read.val_main_cst_3_apply]
  refine congrArg leaky ?_
  rw [Read.val_main_v31_apply, Read.val_main_v28_apply, Read.val_main_v30_apply, Read.val_main_v29_apply]
  refine dense_pt fun q => ?_
  rw [Read.val_main_v27_apply, Read.val_main_v26_apply, Read.val_main_v25_apply, Read.val_main_v24_apply, Read.val_main_cst_1_apply]
  rfl

theorem messages2 : R65 = msg (gath a2 R56) R11 := by
  funext i
  rw [Read.val_main_v65_apply, Read.val_main_v64_apply, Read.val_main_call3_v0_apply, Read.val_main_call3_cst_apply]
  rfl

theorem layer2 : R101 = convRows (a17 ix0) R56 (scat a2 R65) a18 (row a19) a20 (row a21) (row a22) (row a23) (row a24) (row a25) := by
  funext i
  rw [Read.val_main_v101_apply, Read.val_main_v100_apply, Read.val_main_v97_apply, Read.val_main_v94_apply, Read.val_main_v88_apply,
    Read.val_main_v87_apply, Read.val_main_v86_apply, Read.val_main_v93_apply, Read.val_main_v92_apply, Read.val_main_v91_apply,
    Read.val_main_v90_apply, Read.val_main_v89_apply, Read.val_main_cst_11_apply, Read.val_main_v96_apply, Read.val_main_v95_apply,
    Read.val_main_v99_apply, Read.val_main_v98_apply, Read.val_main_call5_v0_apply, Read.val_main_call5_cst_apply]
  refine bn_pt ?_
  rw [Read.val_main_v85_apply, Read.val_main_v82_apply, Read.val_main_v84_apply, Read.val_main_v83_apply]
  refine dense_pt fun p => ?_
  rw [Read.val_main_v81_apply, Read.val_main_v78_apply, Read.val_main_v80_apply, Read.val_main_v79_apply, Read.val_main_v77_apply,
    Read.val_main_cst_9_apply, Read.val_main_cst_10_apply]
  refine congrArg leaky ?_
  rw [Read.val_main_v76_apply, Read.val_main_v73_apply, Read.val_main_v75_apply, Read.val_main_v74_apply]
  refine dense_pt fun q => ?_
  rw [Read.val_main_v72_apply, Read.val_main_v71_apply, Read.val_main_v70_apply, Read.val_main_v69_apply, Read.val_main_cst_8_apply]
  rfl

theorem sums : R104 = poolSum (fun n => a3 (ix1 n)) R101 :=
  Cert.Bridge.scatterAdd_rows_eq_poolSum _ _ (fun n => by rw [Read.val_main_v103_apply]; exact congrArg a3 (ext1 rfl))
    scatter_S64x128_S50000x1_S50000x128_1_0_0_1.wf _
    (fun i => by rw [Read.val_main_v102_apply, Read.val_main_cst_12_apply]; exact Ideal.ofBits_zero_f32) R101

theorem counts : R108 = poolCnt (fun n => a3 (ix1 n)) :=
  Cert.Bridge.scatterAdd_ones_eq_poolCnt _ _ (fun n => by rw [Read.val_main_v107_apply]; exact congrArg a3 (ext1 rfl))
    scatter_S64_S50000x1_S50000_n_0_0_1.wf _
    (fun i => by rw [Read.val_main_v106_apply, Read.val_main_cst_14_apply]; exact Ideal.ofBits_zero_f32) _
    (fun j => by rw [Read.val_main_v105_apply, Read.val_main_cst_13_apply]; rfl)

theorem headRows : R126 = dense (fun j => leaky (dense (pooled R104 R108) a26 (row a27) j)) a28 (row a29) := by
  funext i
  rw [Read.val_main_v126_apply, Read.val_main_v123_apply, Read.val_main_v125_apply, Read.val_main_v124_apply]
  refine dense_pt (hj := ext1 (Fin.ext (Nat.lt_one_iff.1 (i 1).isLt).symm)) fun p => ?_
  rw [Read.val_main_v122_apply, Read.val_main_v119_apply, Read.val_main_v121_apply, Read.val_main_v120_apply, Read.val_main_v118_apply,
    Read.val_main_cst_16_apply, Read.val_main_cst_17_apply]
  refine congrArg leaky ?_
  rw [Read.val_main_v117_apply, Read.val_main_v114_apply, Read.val_main_v116_apply, Read.val_main_v115_apply]
  refine dense_pt fun q => ?_
  rw [Read.val_main_v113_apply, Read.val_main_v112_apply, Read.val_main_v111_apply, Read.val_main_v110_apply, Read.val_main_v109_apply,
    Read.val_main_cst_15_apply]
  exact congrArg (fun j => Ideal.div (R104 q) (max (R108 j) c1)) (ext1 rfl)

theorem sigm : R132 = fun i => Ideal.logistic (R126 i) := by
  funext i
  rw [Read.val_main_v132_apply, Read.val_main_v131_apply, Read.val_main_cst_19_apply, Read.val_main_v130_apply, Read.val_main_v129_apply,
    Read.val_main_cst_18_apply, Read.val_main_v128_apply, Read.val_main_v127_apply]
  generalize R126 i = x
  exact logistic_spelt x

theorem column : R133 = fun i : S64.Idx => R132 (ix2 (i 0 : Fin 64) (0 : Fin 1)) := by
  funext i
  rw [Read.val_main_v133_apply]
  exact congrArg R132 (Shape.idx_ext₂ (Nat.div_one _) rfl)

theorem ref_value :
    R133 = fun i : S64.Idx =>
      model (gath a2) (scat a2) (fun n => a3 (ix1 n)) a0 a1 a4 (row a5) a6 (row a7)
        (a8 ix0) a9 (row a10) a11 (row a12) (row a13) (row a14) (row a15) (row a16)
        (a17 ix0) a18 (row a19) a20 (row a21) (row a22) (row a23) (row a24) (row a25)
        a26 (row a27) a28 (row a29) (ix2 (i 0 : Fin 64) (0 : Fin 1)) := by
  rw [column, sigm, headRows, counts, sums, layer2, messages2, layer1, messages1, edgeRows, nodeRows]
  rfl

end Cert.ReferenceIdeal.RefValue

end
-- ==== Proof.Alg.lean ====
import proofs.«418815_j86294482911410_2_alg».proof.Defs
import proofs.«418815_j86294482911410_2_alg».proof.Proof.KI.KernelRun
import proofs.«418815_j86294482911410_2_alg».proof.Proof.Ref.RefValue
import proofs.«418815_j86294482911410_2_alg».proof.Proof.Gen.Pre_finite_inputs

noncomputable section

namespace Cert.Proof.Alg

open Idealize.ShloMosaic Idealize.SL.Sem Cert.ReferenceIdeal

theorem frame_ri : Cert.frame_ReferenceIdeal := fun m ρ _ =>
  (θ_run defs _ _).mono (fun _ h c => (h c).2) (Value.run (F := Ideal) m ρ)

-- Both results are the specification's network of the argument arrays, and the arguments agree.
theorem algebraic : Cert.algebraic_KernelIdeal_ReferenceIdeal := by
  intro m g m' g' _ hagree
  refine ⟨_, Cert.KernelIdeal.HandVal.kernel_run m g,
    (θ_run defs _ _).mono (fun _ h c => ⟨(h c).1.trans ?_, (h c).2⟩) (Value.run (F := Ideal) m' g')⟩
  rw [Read.val_main_v133_eq, RefValue.ref_value]
  simp only [hagree c]
  rfl

end Cert.Proof.Alg

end
-- ==== Proof.lean ====
/- Both programs compute one graph network on the extended reals; each frame chains the five launches through the host stretches between them. -/
import proofs.«418815_j86294482911410_2_alg».proof.Defs
import proofs.«418815_j86294482911410_2_alg».proof.Proof.Gen.Kernel
import proofs.«418815_j86294482911410_2_alg».proof.Proof.Gen.KernelIdeal
import proofs.«418815_j86294482911410_2_alg».proof.Proof.Gen.ReferenceIdeal
import proofs.«418815_j86294482911410_2_alg».proof.Proof.Gen.Pre_finite_inputs
import proofs.«418815_j86294482911410_2_alg».proof.Proof.K.Run
import proofs.«418815_j86294482911410_2_alg».proof.Proof.KI.Run
import proofs.«418815_j86294482911410_2_alg».proof.Proof.Alg

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.Proof.Alg.frame_ri,
    trivial,
    Cert.Proof.Alg.algebraic⟩

end Cert.Proof

end
